-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x3200000 : Shape := ⟨2, ![2, 3200000]⟩
abbrev S3200000x1 : Shape := ⟨2, ![3200000, 1]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg8
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg9 main_v33

def fn {F : FTy → Type} [FloatOps F] (main_arg0 : FVec F S50000x5 .f32) (main_arg1 : IVec S2x3200000 32) (main_arg2 : FVec F S3200000x1 .f32) (main_arg3 : IVec S50000 32) (main_arg4 : FVec F S5x64 .f32) (main_arg5 : FVec F S64 .f32) (main_arg6 : FVec F S64x64 .f32) (main_arg7 : FVec F S64 .f32) (main_arg8 : FVec F S64x2 .f32) (main_arg9 : FVec F S2 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x5 : Shape := ⟨2, ![50000, 5]⟩
abbrev S2x3200000 : Shape := ⟨2, ![2, 3200000]⟩
abbrev S3200000x1 : Shape := ⟨2, ![3200000, 1]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S3200000 : Shape := ⟨1, ![3200000]⟩
abbrev S1x3200000 : Shape := ⟨2, ![1, 3200000]⟩
abbrev S3250000 : Shape := ⟨1, ![3250000]⟩
abbrev S_ : Shape := ⟨0, ![]⟩
abbrev S3252224 : Shape := ⟨1, ![3252224]⟩
abbrev S3252224x1 : Shape := ⟨2, ![3252224, 1]⟩
abbrev S3252224x3 : Shape := ⟨2, ![3252224, 3]⟩
abbrev S50000x64 : Shape := ⟨2, ![50000, 64]⟩
abbrev S5000x5 : Shape := ⟨2, ![5000, 5]⟩
abbrev S5000x64 : Shape := ⟨2, ![5000, 64]⟩
abbrev S3252224x64 : Shape := ⟨2, ![3252224, 64]⟩
abbrev S8192x64 : Shape := ⟨2, ![8192, 64]⟩
abbrev S8192x3 : Shape := ⟨2, ![8192, 3]⟩
abbrev S8192x1 : Shape := ⟨2, ![8192, 1]⟩
abbrev S1x64 : Shape := ⟨2, ![1, 64]⟩
abbrev S50x64 : Shape := ⟨2, ![50, 64]⟩
abbrev S50000x1 : Shape := ⟨2, ![50000, 1]⟩
abbrev S50 : Shape := ⟨1, ![50]⟩
abbrev S50x1 : Shape := ⟨2, ![50, 1]⟩
abbrev S1x2 : Shape := ⟨2, ![1, 2]⟩
abbrev S50x2 : Shape := ⟨2, ![50, 2]⟩

abbrev nBuf : Space → Nat
  | .hbm => 123
  | .vmem => 36
  | .smem => 0
  | _ => 0

abbrev bufTy : (tb : Table) → Fin (tcTables nBuf tb) → BufTy
  | .hbm, ⟨0, _⟩ => ⟨S50000x5, .f32⟩
  | .hbm, ⟨1, _⟩ => ⟨S2x3200000, .i32⟩
  | .hbm, ⟨2, _⟩ => ⟨S3200000x1, .f32⟩
  | .hbm, ⟨3, _⟩ => ⟨S50000, .i32⟩
  | .hbm, ⟨4, _⟩ => ⟨S5x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S3200000, .f32⟩
  | .hbm, ⟨11, _⟩ => ⟨S50000, .i32⟩
  | .hbm, ⟨12, _⟩ => ⟨S1x3200000, .i32⟩
  | .hbm, ⟨13, _⟩ => ⟨S3200000, .i32⟩
  | .hbm, ⟨14, _⟩ => ⟨S3250000, .i32⟩
  | .hbm, ⟨15, _⟩ => ⟨S1x3200000, .i32⟩
  | .hbm, ⟨16, _⟩ => ⟨S3200000, .i32⟩
  | .hbm, ⟨17, _⟩ => ⟨S3250000, .i32⟩
  | .hbm, ⟨18, _⟩ => ⟨S_, .f32⟩
  | .hbm, ⟨19, _⟩ => ⟨S50000, .f32⟩
  | .hbm, ⟨20, _⟩ => ⟨S3250000, .f32⟩
  | .hbm, ⟨21, _⟩ => ⟨S_, .i32⟩
  | .hbm, ⟨22, _⟩ => ⟨S_, .i32⟩
  | .hbm, ⟨23, _⟩ => ⟨S3252224, .i32⟩
  | .hbm, ⟨24, _⟩ => ⟨S_, .i32⟩
  | .hbm, ⟨25, _⟩ => ⟨S_, .i32⟩
  | .hbm, ⟨26, _⟩ => ⟨S3252224, .i32⟩
  | .hbm, ⟨27, _⟩ => ⟨S_, .f32⟩
  | .hbm, ⟨28, _⟩ => ⟨S_, .f32⟩
  | .hbm, ⟨29, _⟩ => ⟨S3252224, .f32⟩
  | .hbm, ⟨30, _⟩ => ⟨S_, .f32⟩
  | .hbm, ⟨31, _⟩ => ⟨S50000, .f32⟩
  | .hbm, ⟨32, _⟩ => ⟨S3252224x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S_, .f32⟩
  | .hbm, ⟨38, _⟩ => ⟨S50000, .f32⟩
  | .hbm, ⟨39, _⟩ => ⟨S50000, .i1⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .i32⟩
  | .hbm, ⟨50, _⟩ => ⟨S3252224, .i32⟩
  | .hbm, ⟨51, _⟩ => ⟨S3252224, .i1⟩
  | .hbm, ⟨52, _⟩ => ⟨S_, .i32⟩
  | .hbm, ⟨53, _⟩ => ⟨S3252224, .i32⟩
  | .hbm, ⟨54, _⟩ => ⟨S3252224, .i32⟩
  | .hbm, ⟨55, _⟩ => ⟨S3252224, .i32⟩
  | .hbm, ⟨56, _⟩ => ⟨S3252224x1, .i32⟩
  | .hbm, ⟨57, _⟩ => ⟨S3252224, .f32⟩
  | .hbm, ⟨58, _⟩ => ⟨S_, .i32⟩
  | .hbm, ⟨59, _⟩ => ⟨S3252224, .i32⟩
  | .hbm, ⟨60, _⟩ => ⟨S3252224, .i1⟩
  | .hbm, ⟨61, _⟩ => ⟨S_, .i32⟩
  | .hbm, ⟨62, _⟩ => ⟨S3252224, .i32⟩
  | .hbm, ⟨63, _⟩ => ⟨S3252224, .i32⟩
  | .hbm, ⟨64, _⟩ => ⟨S3252224, .i32⟩
  | .hbm, ⟨65, _⟩ => ⟨S3252224x1, .i32⟩
  | .hbm, ⟨66, _⟩ => ⟨S3252224, .f32⟩
  | .hbm, ⟨67, _⟩ => ⟨S3252224x1, .f32⟩
  | .hbm, ⟨68, _⟩ => ⟨S3252224x1, .f32⟩
  | .hbm, ⟨69, _⟩ => ⟨S3252224x1, .f32⟩
  | .hbm, ⟨70, _⟩ => ⟨S3252224x3, .f32⟩
  | .hbm, ⟨71, _⟩ => ⟨S50000x64, .f32⟩
  | .hbm, ⟨72, _⟩ => ⟨S_, .i32⟩
  | .hbm, ⟨73, _⟩ => ⟨S3252224, .i32⟩
  | .hbm, ⟨74, _⟩ => ⟨S3252224, .i1⟩
  | .hbm, ⟨75, _⟩ => ⟨S_, .i32⟩
  | .hbm, ⟨76, _⟩ => ⟨S3252224, .i32⟩
  | .hbm, ⟨77, _⟩ => ⟨S3252224, .i32⟩
  | .hbm, ⟨78, _⟩ => ⟨S3252224, .i32⟩
  | .hbm, ⟨79, _⟩ => ⟨S3252224x1, .i32⟩
  | .hbm, ⟨80, _⟩ => ⟨S3252224x64, .f32⟩
  | .hbm, ⟨81, _⟩ => ⟨S3252224x64, .f32⟩
  | .hbm, ⟨82, _⟩ => ⟨S_, .f32⟩
  | .hbm, ⟨83, _⟩ => ⟨S50000x64, .f32⟩
  | .hbm, ⟨84, _⟩ => ⟨S3252224x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .i32⟩
  | .hbm, ⟨90, _⟩ => ⟨S3252224, .i32⟩
  | .hbm, ⟨91, _⟩ => ⟨S3252224, .i1⟩
  | .hbm, ⟨92, _⟩ => ⟨S_, .i32⟩
  | .hbm, ⟨93, _⟩ => ⟨S3252224, .i32⟩
  | .hbm, ⟨94, _⟩ => ⟨S3252224, .i32⟩
  | .hbm, ⟨95, _⟩ => ⟨S3252224, .i32⟩
  | .hbm, ⟨96, _⟩ => ⟨S3252224x1, .i32⟩
  | .hbm, ⟨97, _⟩ => ⟨S3252224x64, .f32⟩
  | .hbm, ⟨98, _⟩ => ⟨S3252224x64, .f32⟩
  | .hbm, ⟨99, _⟩ => ⟨S_, .f32⟩
  | .hbm, ⟨100, _⟩ => ⟨S50000x64, .f32⟩
  | .hbm, ⟨101, _⟩ => ⟨S3252224x1, .i32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S_, .f32⟩
  | .hbm, ⟨106, _⟩ => ⟨S50x64, .f32⟩
  | .hbm, ⟨107, _⟩ => ⟨S50000x1, .i32⟩
  | .hbm, ⟨108, _⟩ => ⟨S50x64, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S50, .f32⟩
  | .hbm, ⟨113, _⟩ => ⟨S50000x1, .i32⟩
  | .hbm, ⟨114, _⟩ => ⟨S50, .f32⟩
  | .hbm, ⟨115, _⟩ => ⟨S_, .f32⟩
  | .hbm, ⟨116, _⟩ => ⟨S50, .f32⟩
  | .hbm, ⟨117, _⟩ => ⟨S50, .f32⟩
  | .hbm, ⟨118, _⟩ => ⟨S50x1, .f32⟩
  | .hbm, ⟨119, _⟩ => ⟨S50x64, .f32⟩
  | .hbm, ⟨120, _⟩ => ⟨S50x64, .f32⟩
  | .hbm, ⟨121, _⟩ => ⟨S1x2, .f32⟩
  | .hbm, ⟨122, _⟩ => ⟨S50x2, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x64, .f32⟩
  | .local _ .vmem, ⟨4, _⟩ => ⟨S5000x64, .f32⟩
  | .local _ .vmem, ⟨5, _⟩ => ⟨S8192x64, .f32⟩
  | .local _ .vmem, ⟨6, _⟩ => ⟨S8192x64, .f32⟩
  | .local _ .vmem, ⟨7, _⟩ => ⟨S8192x3, .f32⟩
  | .local _ .vmem, ⟨8, _⟩ => ⟨S8192x3, .f32⟩
  | .local _ .vmem, ⟨9, _⟩ => ⟨S8192x64, .f32⟩
  | .local _ .vmem, ⟨10, _⟩ => ⟨S8192x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S8192x64, .f32⟩
  | .local _ .vmem, ⟨22, _⟩ => ⟨S8192x64, .f32⟩
  | .local _ .vmem, ⟨23, _⟩ => ⟨S8192x3, .f32⟩
  | .local _ .vmem, ⟨24, _⟩ => ⟨S8192x3, .f32⟩
  | .local _ .vmem, ⟨25, _⟩ => ⟨S8192x64, .f32⟩
  | .local _ .vmem, ⟨26, _⟩ => ⟨S8192x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S50x64, .f32⟩
  | .local _ .vmem, ⟨33, _⟩ => ⟨S64x2, .f32⟩
  | .local _ .vmem, ⟨34, _⟩ => ⟨S1x2, .f32⟩
  | .local _ .vmem, ⟨35, _⟩ => ⟨S50x2, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_cst_1 : Ref sig .tc := ⟨.hbm, 27, rfl⟩
abbrev main_call2_v0 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_call4_v0 : Ref sig .tc := ⟨.hbm, 46, rfl⟩
abbrev main_call4_v1 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_9 : Ref sig .tc := ⟨.hbm, 58, rfl⟩
abbrev main_v30 : Ref sig .tc := ⟨.hbm, 59, rfl⟩
abbrev main_v31 : Ref sig .tc := ⟨.hbm, 60, rfl⟩
abbrev main_c_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_c_12 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_14 : Ref sig .tc := ⟨.hbm, 89, rfl⟩
abbrev main_v56 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_18 : Ref sig .tc := ⟨.hbm, 109, rfl⟩
abbrev main_v72 : Ref sig .tc := ⟨.hbm, 110, rfl⟩
abbrev main_cst_19 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem2_0 : DmaSem sig := 34
abbrev cc6_sem3_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![397], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![397], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S50x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S50x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  shapeCasts_S3200000x1_S3200000 : S3200000x1.ShapeCasts S3200000
  slices_S2x3200000_S1x3200000_0_0 : S2x3200000.Slices ![0, 0] S1x3200000
  shapeCasts_S1x3200000_S3200000 : S1x3200000.ShapeCasts S3200000
  concatenates_S3200000_S50000_S3250000_d0 : Shape.Concatenates [S3200000, S50000] S3250000 0
  slices_S2x3200000_S1x3200000_1_0 : S2x3200000.Slices ![1, 0] S1x3200000
  bcast_S_S50000 : S_.BroadcastsInDim S50000 (![] : Fin 0 → Fin S50000.rank)
  pads_S3250000_S3252224_022240 : S3250000.Pads (![0] : Fin 1 → Nat) ![2224] ![0] S3252224
  h_S_ : 0 < S_.numel
  bcast_S3252224_S3252224x1_0 : S3252224.BroadcastsInDim S3252224x1 (![0] : Fin 1 → Fin S3252224x1.rank)
  bcast_S_S3252224 : S_.BroadcastsInDim S3252224 (![] : Fin 0 → Fin S3252224.rank)
  concatenates_S3252224x1_S3252224x1_S3252224x1_S3252224x3_d1 : Shape.Concatenates [S3252224x1, S3252224x1, S3252224x1] S3252224x3 1
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x64_S5000x64_0_0 : ∀ a, (![0, 0] : Fin 2 → Nat) a + S5000x64.size a ≤ S5000x64.size a
  h_S5000x64 : 0 < S5000x64.numel
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  slices_S8192x3_o0_0_S8192x1 : S8192x3.Slices ![0, 0] S8192x1
  slices_S8192x3_o0_1_S8192x1 : S8192x3.Slices ![0, 1] S8192x1
  slices_S8192x3_o0_2_S8192x1 : S8192x3.Slices ![0, 2] S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S50x64 : S_.BroadcastsInDim S50x64 (![] : Fin 0 → Fin S50x64.rank)
  bcast_S50000_S50000x1_0 : S50000.BroadcastsInDim S50000x1 (![0] : Fin 1 → Fin S50000x1.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  shapeCasts_S2_S1x2 : S2.ShapeCasts S1x2
  inb_S50x64_S50x64_0_0 : ∀ a, (![0, 0] : Fin 2 → Nat) a + S50x64.size a ≤ S50x64.size a
  h_S50x64 : 0 < S50x64.numel
  shapeCasts_S50x64_S50x64 : S50x64.ShapeCasts S50x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S50x2 : S1x2.Broadcasts S50x2
  inb_S50x2_S50x2_0_0 : ∀ a, (![0, 0] : Fin 2 → Nat) a + S50x2.size a ≤ S50x2.size a
  h_S50x2 : 0 < S50x2.numel
  scatter_S50000_S3252224x1_S3252224_n_0_0_1_wf : ScatterDims.WF S50000 S3252224x1 S3252224 [] [0] [0] 1
  gather_S50000_S3252224x1_S3252224_n_0_n_n_0_1_1_wf : GatherDims.WF S50000 S3252224x1 S3252224 [] [0] [] [0] [] 1 ![1]
  dot_S5000x5_S5x64_S5000x64_1_0_0_1_n_n_wf : DotDims.WF S5000x5 S5x64 S5000x64 [1] [0] [0] [1] [] []
  gather_S50000x64_S3252224x1_S3252224x64_1_0_n_n_0_1_164_wf : GatherDims.WF S50000x64 S3252224x1 S3252224x64 [1] [0] [] [0] [] 1 ![1, 64]
  scatter_S50000x64_S3252224x1_S3252224x64_1_0_0_1_wf : ScatterDims.WF S50000x64 S3252224x1 S3252224x64 [1] [0] [0] 1
  dot_S5000x64_S64x64_S5000x64_1_0_0_1_n_n_wf : DotDims.WF S5000x64 S64x64 S5000x64 [1] [0] [0] [1] [] []
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  dot_S50x64_S64x2_S50x2_1_0_0_1_n_n_wf : DotDims.WF S50x64 S64x2 S50x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S3252224x64.size a
  hwx1_0 : ∀ i : grid1.Coords, EltTy.bits .f32 = 32 ∨ (Rect.block (s := S3252224x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x3.size a ≤ S3252224x3.size a
  hwx1_1 : ∀ i : grid1.Coords, EltTy.bits .f32 = 32 ∨ (Rect.block (s := S3252224x3) S8192x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S3252224x64.size a
  hwx1_2 : ∀ i : grid1.Coords, EltTy.bits .f32 = 32 ∨ (Rect.block (s := S3252224x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S3252224x64.size a
  hwx4_0 : ∀ i : grid4.Coords, EltTy.bits .f32 = 32 ∨ (Rect.block (s := S3252224x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x3.size a ≤ S3252224x3.size a
  hwx4_1 : ∀ i : grid4.Coords, EltTy.bits .f32 = 32 ∨ (Rect.block (s := S3252224x3) S8192x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S3252224x64.size a
  hwx4_2 : ∀ i : grid4.Coords, EltTy.bits .f32 = 32 ∨ (Rect.block (s := S3252224x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S50x64.size a ≤ S50x64.size a
  hwx6_0 : ∀ i : grid6.Coords, EltTy.bits .f32 = 32 ∨ (Rect.block (s := S50x64) S50x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S50x2.size a ≤ S50x2.size a
  hwx6_3 : ∀ i : grid6.Coords, EltTy.bits .f32 = 32 ∨ (Rect.block (s := S50x2) S50x2.size (cc6_transform_3 i) (hinb6_3 i)).WholeWords (EltTy.packing .f32)

variable [Facts₀]

def scatter_S50000_S3252224x1_S3252224_n_0_0_1 : ScatterDims S50000 S3252224x1 S3252224 where
  updateWindowDims := []
  insertedWindowDims := [0]
  scatterDimsToOperandDims := [0]
  indexVectorDim := 1
  wf := scatter_S50000_S3252224x1_S3252224_n_0_0_1_wf
def gather_S50000_S3252224x1_S3252224_n_0_n_n_0_1_1 : GatherDims S50000 S3252224x1 S3252224 where
  offsetDims := []
  collapsedSliceDims := [0]
  operandBatchingDims := []
  startIndicesBatchingDims := []
  startIndexMap := [0]
  indexVectorDim := 1
  sliceSizes := ![1]
  wf := gather_S50000_S3252224x1_S3252224_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S50000x64_S3252224x1_S3252224x64_1_0_n_n_0_1_164 : GatherDims S50000x64 S3252224x1 S3252224x64 where
  offsetDims := [1]
  collapsedSliceDims := [0]
  operandBatchingDims := []
  startIndicesBatchingDims := []
  startIndexMap := [0]
  indexVectorDim := 1
  sliceSizes := ![1, 64]
  wf := gather_S50000x64_S3252224x1_S3252224x64_1_0_n_n_0_1_164_wf
def scatter_S50000x64_S3252224x1_S3252224x64_1_0_0_1 : ScatterDims S50000x64 S3252224x1 S3252224x64 where
  updateWindowDims := [1]
  insertedWindowDims := [0]
  scatterDimsToOperandDims := [0]
  indexVectorDim := 1
  wf := scatter_S50000x64_S3252224x1_S3252224x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x64_S64x2_S50x2_1_0_0_1_n_n : DotDims S50x64 S64x2 S50x2 where
  lhsContracting := [1]
  rhsContracting := [0]
  lhsNonContracting := [0]
  rhsNonContracting := [1]
  lhsBatch := []
  rhsBatch := []
  wf := dot_S50x64_S64x2_S50x2_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S8192x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S8192x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S50x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S50x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x5 : Shape := ⟨2, ![50000, 5]⟩
abbrev S2x3200000 : Shape := ⟨2, ![2, 3200000]⟩
abbrev S3200000x1 : Shape := ⟨2, ![3200000, 1]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S3200000 : Shape := ⟨1, ![3200000]⟩
abbrev S1x3200000 : Shape := ⟨2, ![1, 3200000]⟩
abbrev S3250000 : Shape := ⟨1, ![3250000]⟩
abbrev S_ : Shape := ⟨0, ![]⟩
abbrev S3250000x1 : Shape := ⟨2, ![3250000, 1]⟩
abbrev S50000x64 : Shape := ⟨2, ![50000, 64]⟩
abbrev S3250000x64 : Shape := ⟨2, ![3250000, 64]⟩
abbrev S1x64 : Shape := ⟨2, ![1, 64]⟩
abbrev S50x64 : Shape := ⟨2, ![50, 64]⟩
abbrev S50000x1 : Shape := ⟨2, ![50000, 1]⟩
abbrev S50 : Shape := ⟨1, ![50]⟩
abbrev S50x1 : Shape := ⟨2, ![50, 1]⟩
abbrev S50x2 : Shape := ⟨2, ![50, 2]⟩
abbrev S1x2 : Shape := ⟨2, ![1, 2]⟩

abbrev nBuf : Space → Nat
  | .hbm => 165
  | .vmem => 0
  | .smem => 0
  | _ => 0

abbrev hbmTy0_0 (i : Nat) : BufTy := match i % 128 with
  | 0 => ⟨S50000x5, .f32⟩
  | 1 => ⟨S2x3200000, .i32⟩
  | 2 => ⟨S3200000x1, .f32⟩
  | 3 => ⟨S50000, .i32⟩
  | 4 => ⟨S5x64, .f32⟩
  | 5 => ⟨S64, .f32⟩
  | 6 => ⟨S64x64, .f32⟩
  | 7 => ⟨S64, .f32⟩
  | 8 => ⟨S64x2, .f32⟩
  | 9 => ⟨S2, .f32⟩
  | 10 => ⟨S3200000, .f32⟩
  | 11 => ⟨S50000, .i32⟩
  | 12 => ⟨S1x3200000, .i32⟩
  | 13 => ⟨S3200000, .i32⟩
  | 14 => ⟨S3250000, .i32⟩
  | 15 => ⟨S1x3200000, .i32⟩
  | 16 => ⟨S3200000, .i32⟩
  | 17 => ⟨S3250000, .i32⟩
  | 18 => ⟨S_, .f32⟩
  | 19 => ⟨S50000, .f32⟩
  | 20 => ⟨S3250000, .f32⟩
  | 21 => ⟨S_, .f32⟩
  | 22 => ⟨S50000, .f32⟩
  | 23 => ⟨S3250000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .i1⟩
  | 31 => ⟨S_, .f32⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S3250000, .i32⟩
  | 42 => ⟨S3250000, .i1⟩
  | 43 => ⟨S_, .i32⟩
  | 44 => ⟨S3250000, .i32⟩
  | 45 => ⟨S3250000, .i32⟩
  | 46 => ⟨S3250000, .i32⟩
  | 47 => ⟨S3250000x1, .i32⟩
  | 48 => ⟨S3250000, .f32⟩
  | 49 => ⟨S3250000, .f32⟩
  | 50 => ⟨S_, .i32⟩
  | 51 => ⟨S3250000, .i32⟩
  | 52 => ⟨S3250000, .i1⟩
  | 53 => ⟨S_, .i32⟩
  | 54 => ⟨S3250000, .i32⟩
  | 55 => ⟨S3250000, .i32⟩
  | 56 => ⟨S3250000, .i32⟩
  | 57 => ⟨S3250000x1, .i32⟩
  | 58 => ⟨S3250000, .f32⟩
  | 59 => ⟨S3250000, .f32⟩
  | 60 => ⟨S50000x64, .f32⟩
  | 61 => ⟨S_, .i32⟩
  | 62 => ⟨S3250000, .i32⟩
  | 63 => ⟨S3250000, .i1⟩
  | 64 => ⟨S_, .i32⟩
  | 65 => ⟨S3250000, .i32⟩
  | 66 => ⟨S3250000, .i32⟩
  | 67 => ⟨S3250000, .i32⟩
  | 68 => ⟨S3250000x1, .i32⟩
  | 69 => ⟨S3250000x64, .f32⟩
  | 70 => ⟨S3250000x1, .f32⟩
  | 71 => ⟨S3250000x64, .f32⟩
  | 72 => ⟨S3250000x64, .f32⟩
  | 73 => ⟨S_, .f32⟩
  | 74 => ⟨S50000x64, .f32⟩
  | 75 => ⟨S3250000x1, .i32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S_, .f32⟩
  | 84 => ⟨S50000, .f32⟩
  | 85 => ⟨S3250000x1, .i32⟩
  | 86 => ⟨S50000, .f32⟩
  | 87 => ⟨S_, .f32⟩
  | 88 => ⟨S50000, .f32⟩
  | 89 => ⟨S50000, .i1⟩
  | 90 => ⟨S_, .f32⟩
  | 91 => ⟨S50000, .f32⟩
  | 92 => ⟨S50000, .i1⟩
  | 93 => ⟨S_, .f32⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S3250000, .i32⟩
  | 104 => ⟨S3250000, .i1⟩
  | 105 => ⟨S_, .i32⟩
  | 106 => ⟨S3250000, .i32⟩
  | 107 => ⟨S3250000, .i32⟩
  | 108 => ⟨S3250000, .i32⟩
  | 109 => ⟨S3250000x1, .i32⟩
  | 110 => ⟨S3250000, .f32⟩
  | 111 => ⟨S3250000, .f32⟩
  | 112 => ⟨S_, .i32⟩
  | 113 => ⟨S3250000, .i32⟩
  | 114 => ⟨S3250000, .i1⟩
  | 115 => ⟨S_, .i32⟩
  | 116 => ⟨S3250000, .i32⟩
  | 117 => ⟨S3250000, .i32⟩
  | 118 => ⟨S3250000, .i32⟩
  | 119 => ⟨S3250000x1, .i32⟩
  | 120 => ⟨S3250000, .f32⟩
  | 121 => ⟨S3250000, .f32⟩
  | 122 => ⟨S50000x64, .f32⟩
  | 123 => ⟨S_, .i32⟩
  | 124 => ⟨S3250000, .i32⟩
  | 125 => ⟨S3250000, .i1⟩
  | 126 => ⟨S_, .i32⟩
  | 127 => ⟨S3250000, .i32⟩
  | _ => ⟨S50000x5, .f32⟩

abbrev hbmTy0_1 (i : Nat) : BufTy := match i % 128 with
  | 0 => ⟨S3250000, .i32⟩
  | 1 => ⟨S3250000, .i32⟩
  | 2 => ⟨S3250000x1, .i32⟩
  | 3 => ⟨S3250000x64, .f32⟩
  | 4 => ⟨S3250000x1, .f32⟩
  | 5 => ⟨S3250000x64, .f32⟩
  | 6 => ⟨S3250000x64, .f32⟩
  | 7 => ⟨S_, .f32⟩
  | 8 => ⟨S50000x64, .f32⟩
  | 9 => ⟨S3250000x1, .i32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S_, .f32⟩
  | 18 => ⟨S50x64, .f32⟩
  | 19 => ⟨S50000x1, .i32⟩
  | 20 => ⟨S50x64, .f32⟩
  | 21 => ⟨S_, .f32⟩
  | 22 => ⟨S50000, .f32⟩
  | 23 => ⟨S_, .f32⟩
  | 24 => ⟨S50, .f32⟩
  | 25 => ⟨S50000x1, .i32⟩
  | 26 => ⟨S50, .f32⟩
  | 27 => ⟨S_, .f32⟩
  | 28 => ⟨S50, .f32⟩
  | 29 => ⟨S50, .f32⟩
  | 30 => ⟨S50x1, .f32⟩
  | 31 => ⟨S50x64, .f32⟩
  | 32 => ⟨S50x64, .f32⟩
  | 33 => ⟨S50x2, .f32⟩
  | 34 => ⟨S1x2, .f32⟩
  | 35 => ⟨S50x2, .f32⟩
  | 36 => ⟨S50x2, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_call3_v0 : Ref sig .tc := ⟨.hbm, 94, rfl⟩
abbrev main_call3_v1 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_call4_v0 : Ref sig .tc := ⟨.hbm, 99, rfl⟩
abbrev main_call4_v1 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_18 : Ref sig .tc := ⟨.hbm, 112, rfl⟩
abbrev main_v72 : Ref sig .tc := ⟨.hbm, 113, rfl⟩
abbrev main_v73 : Ref sig .tc := ⟨.hbm, 114, rfl⟩
abbrev main_c_19 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_20 : Ref sig .tc := ⟨.hbm, 123, rfl⟩
abbrev main_v81 : Ref sig .tc := ⟨.hbm, 124, rfl⟩
abbrev main_v82 : Ref sig .tc := ⟨.hbm, 125, rfl⟩
abbrev main_c_21 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call5_cst : Ref sig .tc := ⟨.hbm, 142, rfl⟩
abbrev main_call5_v0 : Ref sig .tc := ⟨.hbm, 143, rfl⟩
abbrev main_v97 : Ref sig .tc := ⟨.hbm, 144, rfl⟩
abbrev main_cst_23 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_24 : Ref sig .tc := ⟨.hbm, 149, rfl⟩
abbrev main_v101 : Ref sig .tc := ⟨.hbm, 150, rfl⟩
abbrev main_cst_25 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_26 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩

abbrev nD : Nat := 1
abbrev τ : Topo := Topo.v7x

variable {F : FTy → Type} [FloatOps F]

class Facts₀ : Prop where
  shapeCasts_S3200000x1_S3200000 : S3200000x1.ShapeCasts S3200000
  slices_S2x3200000_S1x3200000_0_0 : S2x3200000.Slices ![0, 0] S1x3200000
  shapeCasts_S1x3200000_S3200000 : S1x3200000.ShapeCasts S3200000
  concatenates_S3200000_S50000_S3250000_d0 : Shape.Concatenates [S3200000, S50000] S3250000 0
  slices_S2x3200000_S1x3200000_1_0 : S2x3200000.Slices ![1, 0] S1x3200000
  bcast_S_S50000 : S_.BroadcastsInDim S50000 (![] : Fin 0 → Fin S50000.rank)
  bcast_S3250000_S3250000x1_0 : S3250000.BroadcastsInDim S3250000x1 (![0] : Fin 1 → Fin S3250000x1.rank)
  bcast_S_S3250000 : S_.BroadcastsInDim S3250000 (![] : Fin 0 → Fin S3250000.rank)
  bcast_S3250000x1_S3250000x64_0_1 : S3250000x1.BroadcastsInDim S3250000x64 (![0, 1] : Fin 2 → Fin S3250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50x64 : S_.BroadcastsInDim S50x64 (![] : Fin 0 → Fin S50x64.rank)
  bcast_S50000_S50000x1_0 : S50000.BroadcastsInDim S50000x1 (![0] : Fin 1 → Fin S50000x1.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  scatter_S50000_S3250000x1_S3250000_n_0_0_1_wf : ScatterDims.WF S50000 S3250000x1 S3250000 [] [0] [0] 1
  gather_S50000_S3250000x1_S3250000_n_0_n_n_0_1_1_wf : GatherDims.WF S50000 S3250000x1 S3250000 [] [0] [] [0] [] 1 ![1]
  dot_S50000x5_S5x64_S50000x64_1_0_0_1_n_n_wf : DotDims.WF S50000x5 S5x64 S50000x64 [1] [0] [0] [1] [] []
  gather_S50000x64_S3250000x1_S3250000x64_1_0_n_n_0_1_164_wf : GatherDims.WF S50000x64 S3250000x1 S3250000x64 [1] [0] [] [0] [] 1 ![1, 64]
  scatter_S50000x64_S3250000x1_S3250000x64_1_0_0_1_wf : ScatterDims.WF S50000x64 S3250000x1 S3250000x64 [1] [0] [0] 1
  dot_S50000x64_S64x64_S50000x64_1_0_0_1_n_n_wf : DotDims.WF S50000x64 S64x64 S50000x64 [1] [0] [0] [1] [] []
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  dot_S50x64_S64x2_S50x2_1_0_0_1_n_n_wf : DotDims.WF S50x64 S64x2 S50x2 [1] [0] [0] [1] [] []

variable [Facts₀]

def scatter_S50000_S3250000x1_S3250000_n_0_0_1 : ScatterDims S50000 S3250000x1 S3250000 where
  updateWindowDims := []
  insertedWindowDims := [0]
  scatterDimsToOperandDims := [0]
  indexVectorDim := 1
  wf := scatter_S50000_S3250000x1_S3250000_n_0_0_1_wf
def gather_S50000_S3250000x1_S3250000_n_0_n_n_0_1_1 : GatherDims S50000 S3250000x1 S3250000 where
  offsetDims := []
  collapsedSliceDims := [0]
  operandBatchingDims := []
  startIndicesBatchingDims := []
  startIndexMap := [0]
  indexVectorDim := 1
  sliceSizes := ![1]
  wf := gather_S50000_S3250000x1_S3250000_n_0_n_n_0_1_1_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def gather_S50000x64_S3250000x1_S3250000x64_1_0_n_n_0_1_164 : GatherDims S50000x64 S3250000x1 S3250000x64 where
  offsetDims := [1]
  collapsedSliceDims := [0]
  operandBatchingDims := []
  startIndicesBatchingDims := []
  startIndexMap := [0]
  indexVectorDim := 1
  sliceSizes := ![1, 64]
  wf := gather_S50000x64_S3250000x1_S3250000x64_1_0_n_n_0_1_164_wf
def scatter_S50000x64_S3250000x1_S3250000x64_1_0_0_1 : ScatterDims S50000x64 S3250000x1 S3250000x64 where
  updateWindowDims := [1]
  insertedWindowDims := [0]
  scatterDimsToOperandDims := [0]
  indexVectorDim := 1
  wf := scatter_S50000x64_S3250000x1_S3250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x64_S64x2_S50x2_1_0_0_1_n_n : DotDims S50x64 S64x2 S50x2 where
  lhsContracting := [1]
  rhsContracting := [0]
  lhsNonContracting := [0]
  rhsNonContracting := [1]
  lhsBatch := []
  rhsBatch := []
  wf := dot_S50x64_S64x2_S50x2_1_0_0_1_n_n_wf

class Facts : Prop extends Facts₀ where

variable [Facts]
-- ==== Proof.KernelIdeal.FrameR0.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x5 := Rect.unit (s := S5000x5) ![0, 0] S5000x5.size inb_S5000x5_S5000x5_0_0
abbrev r0_1 : Rect S5x64 := Rect.unit (s := S5x64) ![0, 0] S5x64.size inb_S5x64_S5x64_0_0
abbrev r0_2 : Rect S5000x64 := Rect.unit (s := S5000x64) ![0, 0] S5000x64.size inb_S5000x64_S5000x64_0_0

def out0_2 (x0 : Vec F S5000x5 .f32) (x1 : Vec F S5x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in

theorem sound_kernel0 (c : Dev nD) (E : Set ℕ) (i : grid0.Coords)
    (arg1 : Memref sig .tc .vmem S5000x5 .f32) (harg1 : arg1.IsWhole) (arg2 : Memref sig .tc .vmem S5x64 .f32) (harg2 : arg2.IsWhole)
    (arg3 : Memref sig .tc .vmem S5000x64 .f32) (harg3 : arg3.IsWhole)
    (x0 : Vec F S5000x5 .f32) (x1 : Vec F S5x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  change _ ⊢ wp frame _ Set.univ (bodyAt0 t) _
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.FrameR1.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8192x64 := Rect.unit (s := S8192x64) ![0, 0] S8192x64.size inb_S8192x64_S8192x64_0_0
abbrev r1_1 : Rect S8192x3 := Rect.unit (s := S8192x3) ![0, 0] S8192x3.size inb_S8192x3_S8192x3_0_0
abbrev r1_2 : Rect S8192x64 := Rect.unit (s := S8192x64) ![0, 0] S8192x64.size inb_S8192x64_S8192x64_0_0

def out1_2 (x0 : Vec F S8192x64 .f32) (x1 : Vec F S8192x3 .f32) : Vec F S8192x64 .f32 :=
  View.canon [⟨r1_2, k1_pay1 (View.ld x1 r1_1) (View.ld x0 r1_0)⟩]

theorem cover1_2 (p0 : Vec F S8192x64 .f32) (y : S8192x64.Idx) :
    ∃ pc ∈ ([⟨r1_2, p0⟩] : List (View.Piece (Elt F) S8192x64 .f32)), y ∈ pc.1.set :=
  View.cover_of_tiled [⟨r1_2, p0⟩] S8192x64.size (by rfl) y

set_option maxHeartbeats 1000000 in

theorem sound_kernel1 (c : Dev nD) (E : Set ℕ) (i : grid1.Coords)
    (arg1 : Memref sig .tc .vmem S8192x64 .f32) (harg1 : arg1.IsWhole) (arg2 : Memref sig .tc .vmem S8192x3 .f32) (harg2 : arg2.IsWhole)
    (arg3 : Memref sig .tc .vmem S8192x64 .f32) (harg3 : arg3.IsWhole)
    (x0 : Vec F S8192x64 .f32) (x1 : Vec F S8192x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  change _ ⊢ wp frame _ Set.univ (bodyAt1 t) _
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.FrameR2.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S5000x64 := Rect.unit (s := S5000x64) ![0, 0] S5000x64.size inb_S5000x64_S5000x64_0_0

def out2_2 (x0 : Vec F S5000x64 .f32) (x1 : Vec F S1x64 .f32) : Vec F S5000x64 .f32 :=
  View.canon [⟨r2_2, k2_pay1 (View.ld x0 r2_0) (View.ld x1 r2_1)⟩]

theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in

theorem sound_kernel2 (c : Dev nD) (E : Set ℕ) (i : grid2.Coords)
    (a0 : Memref sig .tc .vmem S5000x64 .f32) (ha0 : a0.IsWhole) (a1 : Memref sig .tc .vmem S1x64 .f32) (ha1 : a1.IsWhole)
    (a2 : Memref sig .tc .vmem S5000x64 .f32) (ha2 : a2.IsWhole)
    (x0 : Vec F S5000x64 .f32) (x1 : Vec F S1x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out2_2 x0 x1)) -∗ K ⟨⟩))
      ⊢ wp frame (wpE (defs₀ (F := F)) Variants.none c none) E (cc2__bias_relu_kernel i a0 ha0 a1 ha1 a2 ha2) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  change _ ⊢ wp frame _ Set.univ (bodyAt2 t) _
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.FrameR3.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S5000x64 := Rect.unit (s := S5000x64) ![0, 0] S5000x64.size inb_S5000x64_S5000x64_0_0

def out3_2 (x0 : Vec F S5000x64 .f32) (x1 : Vec F S64x64 .f32) : Vec F S5000x64 .f32 :=
  View.canon [⟨r3_2, k3_pay1 (View.ld x0 r3_0) (View.ld x1 r3_1)⟩]

theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

set_option maxHeartbeats 1000000 in

theorem sound_kernel3 (c : Dev nD) (E : Set ℕ) (i : grid3.Coords)
    (arg1 : Memref sig .tc .vmem S5000x64 .f32) (harg1 : arg1.IsWhole) (arg2 : Memref sig .tc .vmem S64x64 .f32) (harg2 : arg2.IsWhole)
    (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  change _ ⊢ wp frame _ Set.univ (bodyAt3 t) _
  unfold bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.FrameR4.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import proofs.«165428_j46729244180997_1_alg».proof.Proof.KernelIdeal.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out1_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out1_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  change _ ⊢ wp frame _ Set.univ (bodyAt4 t) _
  unfold bodyAt4
  rw [show @cc4__scale_kernel F _ = @cc1__scale_kernel F _ from rfl]
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel1 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.FrameR5.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import proofs.«165428_j46729244180997_1_alg».proof.Proof.KernelIdeal.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out2_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out2_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d

theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  change _ ⊢ wp frame _ Set.univ (bodyAt5 t) _
  unfold bodyAt5
  rw [show @cc5__bias_relu_kernel F _ = @cc2__bias_relu_kernel F _ from rfl]
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel2 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.FrameR6.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S50x64 := Rect.unit (s := S50x64) ![0, 0] S50x64.size inb_S50x64_S50x64_0_0
abbrev r6_1 : Rect S64x2 := Rect.unit (s := S64x2) ![0, 0] S64x2.size inb_S64x2_S64x2_0_0
abbrev r6_2 : Rect S1x2 := Rect.unit (s := S1x2) ![0, 0] S1x2.size inb_S1x2_S1x2_0_0
abbrev r6_3 : Rect S50x2 := Rect.unit (s := S50x2) ![0, 0] S50x2.size inb_S50x2_S50x2_0_0

def out6_3 (x0 : Vec F S50x64 .f32) (x1 : Vec F S64x2 .f32) (x2 : Vec F S1x2 .f32) : Vec F S50x2 .f32 :=
  View.canon [⟨r6_3, k6_pay1 (View.ld x0 r6_0) (View.ld x1 r6_1) (View.ld x2 r6_2)⟩]

theorem cover6_3 (p : Vec F S50x2 .f32) (y : S50x2.Idx) :
    ∃ pc ∈ ([⟨r6_3, p⟩] : List (View.Piece (Elt F) S50x2 .f32)), y ∈ pc.1.set :=
  View.cover_of_tiled [⟨r6_3, p⟩] S50x2.size (by rfl) y

set_option maxHeartbeats 1000000 in

theorem sound_kernel6 (c : Dev nD) (E : Set ℕ) (i : grid6.Coords)
    (arg1 : Memref sig .tc .vmem S50x64 .f32) (harg1 : arg1.IsWhole) (arg2 : Memref sig .tc .vmem S64x2 .f32) (harg2 : arg2.IsWhole)
    (arg3 : Memref sig .tc .vmem S1x2 .f32) (harg3 : arg3.IsWhole) (arg4 : Memref sig .tc .vmem S50x2 .f32) (harg4 : arg4.IsWhole)
    (x0 : Vec F S50x64 .f32) (x1 : Vec F S64x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns

  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2

  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  change _ ⊢ wp frame _ Set.univ (bodyAt6 t) _
  unfold bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KernelIdeal.FrameFold.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import proofs.«165428_j46729244180997_1_alg».proof.Proof.Gen.KernelIdeal.Regions
import proofs.«165428_j46729244180997_1_alg».proof.Proof.KernelIdeal.FrameR0
import proofs.«165428_j46729244180997_1_alg».proof.Proof.KernelIdeal.FrameR1
import proofs.«165428_j46729244180997_1_alg».proof.Proof.KernelIdeal.FrameR2
import proofs.«165428_j46729244180997_1_alg».proof.Proof.KernelIdeal.FrameR3
import proofs.«165428_j46729244180997_1_alg».proof.Proof.KernelIdeal.FrameR4
import proofs.«165428_j46729244180997_1_alg».proof.Proof.KernelIdeal.FrameR5
import proofs.«165428_j46729244180997_1_alg».proof.Proof.KernelIdeal.FrameR6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)

theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)

theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h

abbrev W5 : Dev nD → Valuation τ sig (Elt F) := fun c => StableHlo.after hostOps0_4 (W4 m ρ c)

theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h

abbrev W6 : Dev nD → Valuation τ sig (Elt F) := fun c => StableHlo.after hostOps0_5 (W5 m ρ c)

theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h

abbrev W7 : Dev nD → Valuation τ sig (Elt F) := fun c => StableHlo.after hostOps0_6 (W6 m ρ c)

theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h

abbrev W8 : Dev nD → Valuation τ sig (Elt F) := fun c => StableHlo.after hostOps0_7 (W7 m ρ c)

theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h

abbrev W9 : Dev nD → Valuation τ sig (Elt F) := fun c => StableHlo.after hostOps0_8 (W8 m ρ c)

theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h

abbrev W10 : Dev nD → Valuation τ sig (Elt F) := fun c => StableHlo.after hostOps0_9 (W9 m ρ c)

theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h

abbrev W11 : Dev nD → Valuation τ sig (Elt F) := fun c => StableHlo.after hostOps0_10 (W10 m ρ c)

theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h

abbrev VE0 : (c : Dev nD) → (b : Ref sig .tc) → Buf (Elt F) ((c : Thread nD τ).loc b) := fun c b => W11 m ρ c b

def W12 (c : Dev nD) : Valuation τ sig (Elt F) :=
  Pipeline.withArrays spec0 c (W11 m ρ c) fun w => (dat0 (VE0 m ρ) c).arrAt w cfg0.N
theorem W12_arr (c : Dev nD) (w : Fin cfg0.W) :
    W12 m ρ c (Proc.devRef .tc (Pipeline.arrRef spec0 w)) = (dat0 (VE0 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
theorem W12_kept (c : Dev nD) (b : Ref sig .tc) (hb : ∀ w, Pipeline.arrRef spec0 w = b → (cfg0.win w).isOut = false) :
    W12 m ρ c (Proc.devRef .tc b) = W11 m ρ c (Proc.devRef .tc b) := by
  by_cases h : ∃ w, Pipeline.arrRef spec0 w = b
  · obtain ⟨w, rfl⟩ := h
    exact (W12_arr m ρ c w).trans (((dat0 (VE0 m ρ) c).arrAt_in w (hb w rfl) _).trans (A_eq0 (VE0 m ρ) c w))
  · exact W12_of_ne m ρ c b fun w e => h ⟨w, e⟩

abbrev W13 : Dev nD → Valuation τ sig (Elt F) := fun c => StableHlo.after hostOps1 (W12 m ρ c)

theorem W13_of (c : Dev nD) (r : Ref sig .tc) (h : r ∉ hostOps1_W) : W13 m ρ c (Proc.devRef .tc r) = W12 m ρ c (Proc.devRef .tc r) :=
  StableHlo.after_of_writes_sub hostOps1 _ hostOps1_writes h

abbrev VE1 : (c : Dev nD) → (b : Ref sig .tc) → Buf (Elt F) ((c : Thread nD τ).loc b) := fun c b => W13 m ρ c b

def W14 (c : Dev nD) : Valuation τ sig (Elt F) :=
  Pipeline.withArrays spec1 c (W13 m ρ c) fun w => (dat1 (VE1 m ρ) c).arrAt w cfg1.N
theorem W14_arr (c : Dev nD) (w : Fin cfg1.W) :
    W14 m ρ c (Proc.devRef .tc (Pipeline.arrRef spec1 w)) = (dat1 (VE1 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
theorem W14_kept (c : Dev nD) (b : Ref sig .tc) (hb : ∀ w, Pipeline.arrRef spec1 w = b → (cfg1.win w).isOut = false) :
    W14 m ρ c (Proc.devRef .tc b) = W13 m ρ c (Proc.devRef .tc b) := by
  by_cases h : ∃ w, Pipeline.arrRef spec1 w = b
  · obtain ⟨w, rfl⟩ := h
    exact (W14_arr m ρ c w).trans (((dat1 (VE1 m ρ) c).arrAt_in w (hb w rfl) _).trans (A_eq1 (VE1 m ρ) c w))
  · exact W14_of_ne m ρ c b fun w e => h ⟨w, e⟩

abbrev W15 : Dev nD → Valuation τ sig (Elt F) := fun c => StableHlo.after hostOps2 (W14 m ρ c)

theorem W15_of (c : Dev nD) (r : Ref sig .tc) (h : r ∉ hostOps2_W) : W15 m ρ c (Proc.devRef .tc r) = W14 m ρ c (Proc.devRef .tc r) :=
  StableHlo.after_of_writes_sub hostOps2 _ hostOps2_writes h

abbrev VE2 : (c : Dev nD) → (b : Ref sig .tc) → Buf (Elt F) ((c : Thread nD τ).loc b) := fun c b => W15 m ρ c b

def W16 (c : Dev nD) : Valuation τ sig (Elt F) :=
  Pipeline.withArrays spec2 c (W15 m ρ c) fun w => (dat2 (VE2 m ρ) c).arrAt w cfg2.N
theorem W16_arr (c : Dev nD) (w : Fin cfg2.W) :
    W16 m ρ c (Proc.devRef .tc (Pipeline.arrRef spec2 w)) = (dat2 (VE2 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
theorem W16_kept (c : Dev nD) (b : Ref sig .tc) (hb : ∀ w, Pipeline.arrRef spec2 w = b → (cfg2.win w).isOut = false) :
    W16 m ρ c (Proc.devRef .tc b) = W15 m ρ c (Proc.devRef .tc b) := by
  by_cases h : ∃ w, Pipeline.arrRef spec2 w = b
  · obtain ⟨w, rfl⟩ := h
    exact (W16_arr m ρ c w).trans (((dat2 (VE2 m ρ) c).arrAt_in w (hb w rfl) _).trans (A_eq2 (VE2 m ρ) c w))
  · exact W16_of_ne m ρ c b fun w e => h ⟨w, e⟩

abbrev VE3 : (c : Dev nD) → (b : Ref sig .tc) → Buf (Elt F) ((c : Thread nD τ).loc b) := fun c b => W16 m ρ c b

def W17 (c : Dev nD) : Valuation τ sig (Elt F) :=
  Pipeline.withArrays spec3 c (W16 m ρ c) fun w => (dat3 (VE3 m ρ) c).arrAt w cfg3.N
theorem W17_arr (c : Dev nD) (w : Fin cfg3.W) :
    W17 m ρ c (Proc.devRef .tc (Pipeline.arrRef spec3 w)) = (dat3 (VE3 m ρ) c).arrAt w cfg3.N := by
  unfold W17; exact Pipeline.withArrays_arr spec3 launch3.win.arr_inj c _ _ w
theorem W17_of_ne (c : Dev nD) (b : Ref sig .tc) (hb : ∀ w, Pipeline.arrRef spec3 w ≠ b) :
    W17 m ρ c (Proc.devRef .tc b) = W16 m ρ c (Proc.devRef .tc b) := by
  unfold W17; exact Pipeline.withArrays_of_ne spec3 c _ _ b hb
theorem W17_kept (c : Dev nD) (b : Ref sig .tc) (hb : ∀ w, Pipeline.arrRef spec3 w = b → (cfg3.win w).isOut = false) :
    W17 m ρ c (Proc.devRef .tc b) = W16 m ρ c (Proc.devRef .tc b) := by
  by_cases h : ∃ w, Pipeline.arrRef spec3 w = b
  · obtain ⟨w, rfl⟩ := h
    exact (W17_arr m ρ c w).trans (((dat3 (VE3 m ρ) c).arrAt_in w (hb w rfl) _).trans (A_eq3 (VE3 m ρ) c w))
  · exact W17_of_ne m ρ c b fun w e => h ⟨w, e⟩

abbrev W18 : Dev nD → Valuation τ sig (Elt F) := fun c => StableHlo.after hostOps4 (W17 m ρ c)

theorem W18_of (c : Dev nD) (r : Ref sig .tc) (h : r ∉ hostOps4_W) : W18 m ρ c (Proc.devRef .tc r) = W17 m ρ c (Proc.devRef .tc r) :=
  StableHlo.after_of_writes_sub hostOps4 _ hostOps4_writes h

abbrev VE4 : (c : Dev nD) → (b : Ref sig .tc) → Buf (Elt F) ((c : Thread nD τ).loc b) := fun c b => W18 m ρ c b

def W19 (c : Dev nD) : Valuation τ sig (Elt F) :=
  Pipeline.withArrays spec4 c (W18 m ρ c) fun w => (dat4 (VE4 m ρ) c).arrAt w cfg4.N
theorem W19_arr (c : Dev nD) (w : Fin cfg4.W) :
    W19 m ρ c (Proc.devRef .tc (Pipeline.arrRef spec4 w)) = (dat4 (VE4 m ρ) c).arrAt w cfg4.N := by
  unfold W19; exact Pipeline.withArrays_arr spec4 launch4.win.arr_inj c _ _ w
theorem W19_of_ne (c : Dev nD) (b : Ref sig .tc) (hb : ∀ w, Pipeline.arrRef spec4 w ≠ b) :
    W19 m ρ c (Proc.devRef .tc b) = W18 m ρ c (Proc.devRef .tc b) := by
  unfold W19; exact Pipeline.withArrays_of_ne spec4 c _ _ b hb
theorem W19_kept (c : Dev nD) (b : Ref sig .tc) (hb : ∀ w, Pipeline.arrRef spec4 w = b → (cfg4.win w).isOut = false) :
    W19 m ρ c (Proc.devRef .tc b) = W18 m ρ c (Proc.devRef .tc b) := by
  by_cases h : ∃ w, Pipeline.arrRef spec4 w = b
  · obtain ⟨w, rfl⟩ := h
    exact (W19_arr m ρ c w).trans (((dat4 (VE4 m ρ) c).arrAt_in w (hb w rfl) _).trans (A_eq4 (VE4 m ρ) c w))
  · exact W19_of_ne m ρ c b fun w e => h ⟨w, e⟩

abbrev W20 : Dev nD → Valuation τ sig (Elt F) := fun c => StableHlo.after hostOps5 (W19 m ρ c)

theorem W20_of (c : Dev nD) (r : Ref sig .tc) (h : r ∉ hostOps5_W) : W20 m ρ c (Proc.devRef .tc r) = W19 m ρ c (Proc.devRef .tc r) :=
  StableHlo.after_of_writes_sub hostOps5 _ hostOps5_writes h

abbrev VE5 : (c : Dev nD) → (b : Ref sig .tc) → Buf (Elt F) ((c : Thread nD τ).loc b) := fun c b => W20 m ρ c b

def W21 (c : Dev nD) : Valuation τ sig (Elt F) :=
  Pipeline.withArrays spec5 c (W20 m ρ c) fun w => (dat5 (VE5 m ρ) c).arrAt w cfg5.N
theorem W21_arr (c : Dev nD) (w : Fin cfg5.W) :
    W21 m ρ c (Proc.devRef .tc (Pipeline.arrRef spec5 w)) = (dat5 (VE5 m ρ) c).arrAt w cfg5.N := by
  unfold W21; exact Pipeline.withArrays_arr spec5 launch5.win.arr_inj c _ _ w
theorem W21_of_ne (c : Dev nD) (b : Ref sig .tc) (hb : ∀ w, Pipeline.arrRef spec5 w ≠ b) :
    W21 m ρ c (Proc.devRef .tc b) = W20 m ρ c (Proc.devRef .tc b) := by
  unfold W21; exact Pipeline.withArrays_of_ne spec5 c _ _ b hb
theorem W21_kept (c : Dev nD) (b : Ref sig .tc) (hb : ∀ w, Pipeline.arrRef spec5 w = b → (cfg5.win w).isOut = false) :
    W21 m ρ c (Proc.devRef .tc b) = W20 m ρ c (Proc.devRef .tc b) := by
  by_cases h : ∃ w, Pipeline.arrRef spec5 w = b
  · obtain ⟨w, rfl⟩ := h
    exact (W21_arr m ρ c w).trans (((dat5 (VE5 m ρ) c).arrAt_in w (hb w rfl) _).trans (A_eq5 (VE5 m ρ) c w))
  · exact W21_of_ne m ρ c b fun w e => h ⟨w, e⟩

abbrev W22 : Dev nD → Valuation τ sig (Elt F) := fun c => StableHlo.after hostOps6 (W21 m ρ c)

theorem W22_of (c : Dev nD) (r : Ref sig .tc) (h : r ∉ hostOps6_W) : W22 m ρ c (Proc.devRef .tc r) = W21 m ρ c (Proc.devRef .tc r) :=
  StableHlo.after_of_writes_sub hostOps6 _ hostOps6_writes h

abbrev VE6 : (c : Dev nD) → (b : Ref sig .tc) → Buf (Elt F) ((c : Thread nD τ).loc b) := fun c b => W22 m ρ c b

def W23 (c : Dev nD) : Valuation τ sig (Elt F) :=
  Pipeline.withArrays spec6 c (W22 m ρ c) fun w => (dat6 (VE6 m ρ) c).arrAt w cfg6.N
theorem W23_arr (c : Dev nD) (w : Fin cfg6.W) :
    W23 m ρ c (Proc.devRef .tc (Pipeline.arrRef spec6 w)) = (dat6 (VE6 m ρ) c).arrAt w cfg6.N := by
  unfold W23; exact Pipeline.withArrays_arr spec6 launch6.win.arr_inj c _ _ w
theorem W23_of_ne (c : Dev nD) (b : Ref sig .tc) (hb : ∀ w, Pipeline.arrRef spec6 w ≠ b) :
    W23 m ρ c (Proc.devRef .tc b) = W22 m ρ c (Proc.devRef .tc b) := by
  unfold W23; exact Pipeline.withArrays_of_ne spec6 c _ _ b hb
theorem W23_kept (c : Dev nD) (b : Ref sig .tc) (hb : ∀ w, Pipeline.arrRef spec6 w = b → (cfg6.win w).isOut = false) :
    W23 m ρ c (Proc.devRef .tc b) = W22 m ρ c (Proc.devRef .tc b) := by
  by_cases h : ∃ w, Pipeline.arrRef spec6 w = b
  · obtain ⟨w, rfl⟩ := h
    exact (W23_arr m ρ c w).trans (((dat6 (VE6 m ρ) c).arrAt_in w (hb w rfl) _).trans (A_eq6 (VE6 m ρ) c w))
  · exact W23_of_ne m ρ c b fun w e => h ⟨w, e⟩

/-- No host stretch writes `b`. -/
abbrev HostKeeps (b : Ref sig .tc) : Prop := [hostOps0_W, hostOps0_1_W, hostOps0_2_W, hostOps0_3_W, hostOps0_4_W, hostOps0_5_W, hostOps0_6_W, hostOps0_7_W, hostOps0_8_W, hostOps0_9_W, hostOps0_10_W, hostOps1_W, hostOps2_W, hostOps4_W, hostOps5_W, hostOps6_W].Forall (b ∉ ·)

/-- No region writes `b` back: a window whose array is `b` is an input. -/
abbrev RegionsKeep (b : Ref sig .tc) : Prop :=
  (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ (∀ w, Pipeline.arrRef spec3 w = b → (cfg3.win w).isOut = false)
    ∧ (∀ w, Pipeline.arrRef spec4 w = b → (cfg4.win w).isOut = false)
    ∧ (∀ w, Pipeline.arrRef spec5 w = b → (cfg5.win w).isOut = false)
    ∧ (∀ w, Pipeline.arrRef spec6 w = b → (cfg6.win w).isOut = false)

variable (c : Dev nD) {b : Ref sig .tc}

theorem W11_launch (hh : HostKeeps b) (hr : RegionsKeep b) : W11 m ρ c (Proc.devRef .tc b) = m ((c.tc : Thread nD τ).loc b) := by
  obtain ⟨a0, a1, a2, a3, a4, a5, a6, a7, a8, a9, a10, -⟩ := hh
  exact (W11_of m ρ c b a10).trans <| (W10_of m ρ c b a9).trans <| (W9_of m ρ c b a8).trans <| (W8_of m ρ c b a7).trans <| (W7_of m ρ c b a6).trans <| (W6_of m ρ c b a5).trans <| (W5_of m ρ c b a4).trans <| (W4_of m ρ c b a3).trans <| (W3_of m ρ c b a2).trans <| (W2_of m ρ c b a1).trans <| (W1_of m ρ c b a0).trans <| rfl

theorem W14_launch (hh : HostKeeps b) (hr : RegionsKeep b) : W14 m ρ c (Proc.devRef .tc b) = m ((c.tc : Thread nD τ).loc b) := by
  have e := W11_launch m ρ c hh hr
  obtain ⟨-, -, -, -, -, -, -, -, -, -, -, a11, -⟩ := hh
  exact (W14_kept m ρ c b hr.2.1).trans <| (W13_of m ρ c b a11).trans <| (W12_kept m ρ c b hr.1).trans e

theorem W16_launch (hh : HostKeeps b) (hr : RegionsKeep b) : W16 m ρ c (Proc.devRef .tc b) = m ((c.tc : Thread nD τ).loc b) := by
  have e := W14_launch m ρ c hh hr
  obtain ⟨-, -, -, -, -, -, -, -, -, -, -, -, a12, -⟩ := hh
  exact (W16_kept m ρ c b hr.2.2.1).trans <| (W15_of m ρ c b a12).trans e

theorem W19_launch (hh : HostKeeps b) (hr : RegionsKeep b) : W19 m ρ c (Proc.devRef .tc b) = m ((c.tc : Thread nD τ).loc b) := by
  have e := W16_launch m ρ c hh hr
  obtain ⟨-, -, -, -, -, -, -, -, -, -, -, -, -, a13, -⟩ := hh
  exact (W19_kept m ρ c b hr.2.2.2.2.1).trans <| (W18_of m ρ c b a13).trans <| (W17_kept m ρ c b hr.2.2.2.1).trans e

theorem W21_launch (hh : HostKeeps b) (hr : RegionsKeep b) : W21 m ρ c (Proc.devRef .tc b) = m ((c.tc : Thread nD τ).loc b) := by
  have e := W19_launch m ρ c hh hr
  obtain ⟨-, -, -, -, -, -, -, -, -, -, -, -, -, -, a14, -⟩ := hh
  exact (W21_kept m ρ c b hr.2.2.2.2.2.1).trans <| (W20_of m ρ c b a14).trans e

theorem W22_launch (hh : HostKeeps b) (hr : RegionsKeep b) : W22 m ρ c (Proc.devRef .tc b) = m ((c.tc : Thread nD τ).loc b) := by
  have e := W21_launch m ρ c hh hr
  obtain ⟨-, -, -, -, -, -, -, -, -, -, -, -, -, -, -, a15⟩ := hh
  exact (W22_of m ρ c b a15).trans e

theorem W23_launch (hh : HostKeeps b) (hr : RegionsKeep b) : W23 m ρ c (Proc.devRef .tc b) = m ((c.tc : Thread nD τ).loc b) :=
  (W23_kept m ρ c b hr.2.2.2.2.2.2).trans (W22_launch m ρ c hh hr)

/-- In a final memory that holds every unscoped buffer at the last boundary's contents, such a buffer is as launched. -/
theorem arg_kept (f : (ℓ : Loc nD τ sig) → Buf (Elt F) ℓ)
    (h : ∀ b ∈ Pipeline.ucRefs τ sig, f ((c : Thread nD τ).1, b) = W23 m ρ c b) (b : Ref sig .tc)
    (hs : ¬ (Proc.devRef .tc b : DevRef τ sig).isScoped) (hh : HostKeeps b) (hr : RegionsKeep b) :
    f ((c.tc : Thread nD τ).loc b) = m ((c.tc : Thread nD τ).loc b) :=
  (h _ (Finset.mem_filter.mpr ⟨StableHlo.devRef_mem_tcRefs b, hs⟩)).trans (W23_launch m ρ c hh hr)

end Cert.KernelIdeal.Hand

end
-- ==== Proof.KernelIdeal.FrameRegs.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import proofs.«165428_j46729244180997_1_alg».proof.Proof.Gen.KernelIdeal.Regions
import proofs.«165428_j46729244180997_1_alg».proof.Proof.KernelIdeal.FrameR0
import proofs.«165428_j46729244180997_1_alg».proof.Proof.KernelIdeal.FrameR1
import proofs.«165428_j46729244180997_1_alg».proof.Proof.KernelIdeal.FrameR2
import proofs.«165428_j46729244180997_1_alg».proof.Proof.KernelIdeal.FrameR3
import proofs.«165428_j46729244180997_1_alg».proof.Proof.KernelIdeal.FrameR4
import proofs.«165428_j46729244180997_1_alg».proof.Proof.KernelIdeal.FrameR5
import proofs.«165428_j46729244180997_1_alg».proof.Proof.KernelIdeal.FrameR6
import proofs.«165428_j46729244180997_1_alg».proof.Proof.KernelIdeal.FrameFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev Tₙ (c : Dev nD) : sProp 𝕄 := iprop(StableHlo.held (c : Thread nD τ) (Pipeline.ucRefs τ sig) (W23 m ρ c) ∗ ∃ r, prngReg c r)

set_option backward.isDefEq.respectTransparency.types false in
/-- A region entered with the unscoped buffers at `We` leaves them at `Wx`, given that `Wx` has the region's arrays at their final
    contents and agrees with `We` elsewhere. -/
def regOf (p : Fin 7) (lf : Pipeline.LaunchFacts (nD := nD) (τ := τ) cfgs p)
    (hb : ∀ c, BodyObligation (pdats m ρ p c) (defs₀ (F := F)) 𝒱₀ () Set.univ)
    (hΦ : ∀ c i, (pdats m ρ p c).Φ i = Pipeline.ΦA (Pipeline.pin (pcfgs (F := F)) adm p).spec c)
    (hq : ∀ c w, (pdats m ρ p c).q w = fullShare) (ho : ∀ c t, (pdats m ρ p c).owed t = 0)
    (hrec : ∀ c, (pdats m ρ p c).recorded 0 = Set.univ)
    (We Wx : Dev nD → Valuation τ sig (Elt F))
    (hA : ∀ c w, (pdats m ρ p c).A w = We c (Pipeline.arrRef (Pipeline.pin (pcfgs (F := F)) adm p).spec w))
    (harr : ∀ c w, Wx c (Proc.devRef .tc (Pipeline.arrRef (Pipeline.pin (pcfgs (F := F)) adm p).spec w)) = (pdats m ρ p c).arrAt w (Pipeline.pin (pcfgs (F := F)) adm p).N)
    (hne : ∀ c (b : Ref sig .tc), (∀ w, Pipeline.arrRef (Pipeline.pin (pcfgs (F := F)) adm p).spec w ≠ b) → Wx c (Proc.devRef .tc b) = We c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (We c) ∗ R c)
  post c := iprop(StableHlo.held (c : Thread nD τ) (Pipeline.ucRefs τ sig) (Wx c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => We c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => We c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => We c b) (fun b => Wx c b) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (body_obligation0 (VE0 m ρ)) (fun _ _ => rfl) (fun _ _ => rfl) (fun _ _ => rfl) (fun _ => rfl)
    (W11 m ρ) (W12 m ρ) (fun _ _ => rfl) (W12_arr m ρ) (W12_of_ne m ρ)

set_option backward.isDefEq.respectTransparency.types false in
def reg1 : Pipeline.RegionSeg (pcfgs (F := F)) adm (pdats m ρ) () defs₀ 𝒱₀ L lv 1 :=
  regOf m ρ 1 launch1 (body_obligation1 (VE1 m ρ)) (fun _ _ => rfl) (fun _ _ => rfl) (fun _ _ => rfl) (fun _ => rfl)
    (W13 m ρ) (W14 m ρ) (fun _ _ => rfl) (W14_arr m ρ) (W14_of_ne m ρ)

set_option backward.isDefEq.respectTransparency.types false in
def reg2 : Pipeline.RegionSeg (pcfgs (F := F)) adm (pdats m ρ) () defs₀ 𝒱₀ L lv 2 :=
  regOf m ρ 2 launch2 (body_obligation2 (VE2 m ρ)) (fun _ _ => rfl) (fun _ _ => rfl) (fun _ _ => rfl) (fun _ => rfl)
    (W15 m ρ) (W16 m ρ) (fun _ _ => rfl) (W16_arr m ρ) (W16_of_ne m ρ)

set_option backward.isDefEq.respectTransparency.types false in
def reg3 : Pipeline.RegionSeg (pcfgs (F := F)) adm (pdats m ρ) () defs₀ 𝒱₀ L lv 3 :=
  regOf m ρ 3 launch3 (body_obligation3 (VE3 m ρ)) (fun _ _ => rfl) (fun _ _ => rfl) (fun _ _ => rfl) (fun _ => rfl)
    (W16 m ρ) (W17 m ρ) (fun _ _ => rfl) (W17_arr m ρ) (W17_of_ne m ρ)

set_option backward.isDefEq.respectTransparency.types false in
def reg4 : Pipeline.RegionSeg (pcfgs (F := F)) adm (pdats m ρ) () defs₀ 𝒱₀ L lv 4 :=
  regOf m ρ 4 launch4 (body_obligation4 (VE4 m ρ)) (fun _ _ => rfl) (fun _ _ => rfl) (fun _ _ => rfl) (fun _ => rfl)
    (W18 m ρ) (W19 m ρ) (fun _ _ => rfl) (W19_arr m ρ) (W19_of_ne m ρ)

set_option backward.isDefEq.respectTransparency.types false in
def reg5 : Pipeline.RegionSeg (pcfgs (F := F)) adm (pdats m ρ) () defs₀ 𝒱₀ L lv 5 :=
  regOf m ρ 5 launch5 (body_obligation5 (VE5 m ρ)) (fun _ _ => rfl) (fun _ _ => rfl) (fun _ _ => rfl) (fun _ => rfl)
    (W20 m ρ) (W21 m ρ) (fun _ _ => rfl) (W21_arr m ρ) (W21_of_ne m ρ)

set_option backward.isDefEq.respectTransparency.types false in
def reg6 : Pipeline.RegionSeg (pcfgs (F := F)) adm (pdats m ρ) () defs₀ 𝒱₀ L lv 6 :=
  regOf m ρ 6 launch6 (body_obligation6 (VE6 m ρ)) (fun _ _ => rfl) (fun _ _ => rfl) (fun _ _ => rfl) (fun _ => rfl)
    (W22 m ρ) (W23 m ρ) (fun _ _ => rfl) (W23_arr m ρ) (W23_of_ne m ρ)

end Cert.KernelIdeal.Hand

end
-- ==== Proof.KernelIdeal.FrameRun.lean ====
import proofs.«165428_j46729244180997_1_alg».proof.Proof.Gen.KernelIdeal.Launch
import proofs.«165428_j46729244180997_1_alg».proof.Proof.Gen.KernelIdeal.Skeleton
import proofs.«165428_j46729244180997_1_alg».proof.Proof.Gen.KernelIdeal.Points
import proofs.«165428_j46729244180997_1_alg».proof.Proof.Gen.KernelIdeal.Regions
import proofs.«165428_j46729244180997_1_alg».proof.Proof.KernelIdeal.FrameR0
import proofs.«165428_j46729244180997_1_alg».proof.Proof.KernelIdeal.FrameR1
import proofs.«165428_j46729244180997_1_alg».proof.Proof.KernelIdeal.FrameR2
import proofs.«165428_j46729244180997_1_alg».proof.Proof.KernelIdeal.FrameR3
import proofs.«165428_j46729244180997_1_alg».proof.Proof.KernelIdeal.FrameR4
import proofs.«165428_j46729244180997_1_alg».proof.Proof.KernelIdeal.FrameR5
import proofs.«165428_j46729244180997_1_alg».proof.Proof.KernelIdeal.FrameR6
import proofs.«165428_j46729244180997_1_alg».proof.Proof.KernelIdeal.FrameFold
import proofs.«165428_j46729244180997_1_alg».proof.Proof.KernelIdeal.FrameRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)),
    .region (reg2 m ρ),
    .region (reg3 m ρ),
    .host (hseg hostOps4 hostOps4_sub hostOps4_fresh (W17 m ρ)),
    .region (reg4 m ρ),
    .host (hseg hostOps5 hostOps5_sub hostOps5_fresh (W19 m ρ)),
    .region (reg5 m ρ),
    .host (hseg hostOps6 hostOps6_sub hostOps6_fresh (W21 m ρ)),
    .region (reg6 m ρ) ]

theorem segs_prog : (segs m ρ).map Pipeline.Seg.prog = [
    StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    Prog.lift (.customCall (Pipeline.entry 0) ()),
    StableHlo.seq hostOps1,
    Prog.lift (.customCall (Pipeline.entry 1) ()),
    StableHlo.seq hostOps2,
    Prog.lift (.customCall (Pipeline.entry 2) ()),
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    Prog.lift (.customCall (Pipeline.entry 6) ()) ] := rfl

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain, segs_prog m ρ]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨arg_kept m ρ c _ (h c) main_arg0 (by decide) (by decide) (by decide),
     arg_kept m ρ c _ (h c) main_arg1 (by decide) (by decide) (by decide),
     arg_kept m ρ c _ (h c) main_arg2 (by decide) (by decide) (by decide),
     arg_kept m ρ c _ (h c) main_arg3 (by decide) (by decide) (by decide),
     arg_kept m ρ c _ (h c) main_arg4 (by decide) (by decide) (by decide),
     arg_kept m ρ c _ (h c) main_arg5 (by decide) (by decide) (by decide),
     arg_kept m ρ c _ (h c) main_arg6 (by decide) (by decide) (by decide),
     arg_kept m ρ c _ (h c) main_arg7 (by decide) (by decide) (by decide),
     arg_kept m ρ c _ (h c) main_arg8 (by decide) (by decide) (by decide),
     arg_kept m ρ c _ (h c) main_arg9 (by decide) (by decide) (by decide)⟩) (run_main m ρ)

end Cert.KernelIdeal.Hand

end
-- ==== Proof.Spec.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.Spec

open Idealize.ShloMosaic Idealize.ShloMosaic.ValueIdx Idealize.ShloMosaic.StableHlo.Predicate

abbrev z32 : EReal := Ideal.ofBits .f32 0x00000000#32

theorem hz : (![0, 0] : Fin 2 → Nat) = fun _ => 0 := funext fun a => by
  match a with
  | ⟨0, _⟩ => rfl
  | ⟨1, _⟩ => rfl

def mm {M K N : ℕ} (x : FVec Ideal ⟨2, ![M, K]⟩ .f32) (w : FVec Ideal ⟨2, ![K, N]⟩ .f32) : FVec Ideal ⟨2, ![M, N]⟩ .f32 :=
  fun j => ∑ k : Fin K, x (ix2 (j 0) k) * w (ix2 k (j 1))

theorem mm_apply {M K N : ℕ} (x : FVec Ideal ⟨2, ![M, K]⟩ .f32) (w : FVec Ideal ⟨2, ![K, N]⟩ .f32) (p : Fin M) (q : Fin N) :
    mm x w (ix2 p q) = ∑ k : Fin K, x (ix2 p k) * w (ix2 k q) := rfl

def scaleRows {n C : ℕ} (h : FVec Ideal ⟨2, ![n, C]⟩ .f32) (s : FVec Ideal ⟨2, ![n, 3]⟩ .f32) : FVec Ideal ⟨2, ![n, C]⟩ .f32 :=
  fun j => h j * ((s (ix2 (j 0) 0) * s (ix2 (j 0) 1)) * s (ix2 (j 0) 2))

theorem scaleRows_apply {n C : ℕ} (h : FVec Ideal ⟨2, ![n, C]⟩ .f32) (s : FVec Ideal ⟨2, ![n, 3]⟩ .f32) (e : Fin n) (c : Fin C) :
    scaleRows h s (ix2 e c) = h (ix2 e c) * ((s (ix2 e 0) * s (ix2 e 1)) * s (ix2 e 2)) := rfl

def biasRelu {n C : ℕ} (a : FVec Ideal ⟨2, ![n, C]⟩ .f32) (b : FVec Ideal ⟨2, ![1, C]⟩ .f32) : FVec Ideal ⟨2, ![n, C]⟩ .f32 :=
  fun j => max (a j + b (ix2 0 (j 1))) z32

theorem biasRelu_apply {n C : ℕ} (a : FVec Ideal ⟨2, ![n, C]⟩ .f32) (b : FVec Ideal ⟨2, ![1, C]⟩ .f32) (r : Fin n) (c : Fin C) :
    biasRelu a b (ix2 r c) = max (a (ix2 r c) + b (ix2 0 c)) z32 := rfl

def affine {M K N : ℕ} (p : FVec Ideal ⟨2, ![M, K]⟩ .f32) (w : FVec Ideal ⟨2, ![K, N]⟩ .f32) (b : FVec Ideal ⟨2, ![1, N]⟩ .f32) :
    FVec Ideal ⟨2, ![M, N]⟩ .f32 :=
  fun j => (∑ k : Fin K, p (ix2 (j 0) k) * w (ix2 k (j 1))) + b (ix2 0 (j 1))

theorem affine_apply {M K N : ℕ} (p : FVec Ideal ⟨2, ![M, K]⟩ .f32) (w : FVec Ideal ⟨2, ![K, N]⟩ .f32) (b : FVec Ideal ⟨2, ![1, N]⟩ .f32)
    (g : Fin M) (q : Fin N) : affine p w b (ix2 g q) = (∑ k : Fin K, p (ix2 g k) * w (ix2 k q)) + b (ix2 0 q) := rfl

def wrapW (w : BitVec 32) : BitVec 32 := Scalar.select (IntOp.cmpi .slt w 0#32) (IntOp.addi w 50000#32) w

def rowW (w : BitVec 32) : Fin 50000 := ⟨min w.toInt.toNat (50000 - 1), by omega⟩

def edgeTerm (XW : FVec Ideal ⟨2, ![50000, 64]⟩ .f32) (dinv : FVec Ideal ⟨1, ![50000]⟩ .f32) (s d : BitVec 32) (ew : EReal) (c : Fin 64) : EReal :=
  XW (ix2 (rowW (wrapW s)) c) * ((dinv (ix1 (rowW (wrapW s))) * ew) * dinv (ix1 (rowW (wrapW d))))

theorem edgeTerm_zero (XW : FVec Ideal ⟨2, ![50000, 64]⟩ .f32) (dinv : FVec Ideal ⟨1, ![50000]⟩ .f32) (s d : BitVec 32) (c : Fin 64) :
    edgeTerm XW dinv s d 0 c = 0 := by
  unfold edgeTerm
  rw [mul_zero, zero_mul, mul_zero]

def aggAt {n : ℕ} (src dst : Fin n → BitVec 32) (ew : Fin n → EReal) (XW : FVec Ideal ⟨2, ![50000, 64]⟩ .f32)
    (dinv : FVec Ideal ⟨1, ![50000]⟩ .f32) (r : Fin 50000) (c : Fin 64) : EReal :=
  z32 + ∑ e ∈ Finset.univ.filter (fun e : Fin n => (dst e).toInt = (r.val : ℤ)), edgeTerm XW dinv (src e) (dst e) (ew e) c

def degAt {n : ℕ} (dst : Fin n → BitVec 32) (ew : Fin n → EReal) (r : Fin 50000) : EReal :=
  z32 + ∑ e ∈ Finset.univ.filter (fun e : Fin n => (dst e).toInt = (r.val : ℤ)), ew e

theorem sum_castLE {M : Type} [AddCommMonoid M] {n m : ℕ} (h : n ≤ m) (g' : Fin m → M) (g : Fin n → M)
    (hg : ∀ e : Fin n, g' (Fin.castLE h e) = g e) (hz : ∀ e : Fin m, n ≤ e.val → g' e = 0) :
    ∑ e, g' e = ∑ e, g e := by
  rw [Finset.sum_fin_eq_sum_range, Finset.sum_fin_eq_sum_range]
  rw [← Finset.sum_subset (Finset.range_subset_range.mpr h)]
  · refine Finset.sum_congr rfl fun i hi => ?_
    have hin : i < n := Finset.mem_range.mp hi
    rw [dif_pos hin, dif_pos (lt_of_lt_of_le hin h)]
    exact hg ⟨i, hin⟩
  · intro i hi hni
    have him : i < m := Finset.mem_range.mp hi
    rw [dif_pos him]
    exact hz ⟨i, him⟩ (Nat.le_of_not_lt fun hlt => hni (Finset.mem_range.mpr hlt))

theorem sum_filter_castLE {M : Type} [AddCommMonoid M] {n m : ℕ} (h : n ≤ m) (P' : Fin m → Prop) [DecidablePred P'] (P : Fin n → Prop) [DecidablePred P]
    (g' : Fin m → M) (g : Fin n → M) (hP : ∀ e : Fin n, P' (Fin.castLE h e) ↔ P e)
    (hg : ∀ e : Fin n, g' (Fin.castLE h e) = g e) (hz : ∀ e : Fin m, n ≤ e.val → g' e = 0) :
    ∑ e ∈ Finset.univ.filter P', g' e = ∑ e ∈ Finset.univ.filter P, g e := by
  rw [Finset.sum_filter, Finset.sum_filter]
  refine sum_castLE h _ _ (fun e => ?_) (fun e he => ?_)
  · by_cases hp : P e
    · rw [if_pos hp, if_pos ((hP e).mpr hp), hg]
    · rw [if_neg hp, if_neg (fun hp' => hp ((hP e).mp hp'))]
  · rw [hz e he]; exact ite_self 0

theorem aggAt_pad {n m : ℕ} (h : n ≤ m) (src' dst' : Fin m → BitVec 32) (ew' : Fin m → EReal) (src dst : Fin n → BitVec 32) (ew : Fin n → EReal)
    (hs : ∀ e : Fin n, src' (Fin.castLE h e) = src e) (hd : ∀ e : Fin n, dst' (Fin.castLE h e) = dst e)
    (he : ∀ e : Fin n, ew' (Fin.castLE h e) = ew e) (hz : ∀ e : Fin m, n ≤ e.val → ew' e = 0)
    (XW : FVec Ideal ⟨2, ![50000, 64]⟩ .f32) (dinv : FVec Ideal ⟨1, ![50000]⟩ .f32) (r : Fin 50000) (c : Fin 64) :
    aggAt src' dst' ew' XW dinv r c = aggAt src dst ew XW dinv r c := by
  unfold aggAt
  congr 1
  refine sum_filter_castLE h _ _ _ _ (fun e => by rw [hd]) (fun e => by rw [hs, hd, he]) (fun e hge => ?_)
  rw [hz e hge]; exact edgeTerm_zero _ _ _ _ _

theorem degAt_pad {n m : ℕ} (h : n ≤ m) (dst' : Fin m → BitVec 32) (ew' : Fin m → EReal) (dst : Fin n → BitVec 32) (ew : Fin n → EReal)
    (hd : ∀ e : Fin n, dst' (Fin.castLE h e) = dst e) (he : ∀ e : Fin n, ew' (Fin.castLE h e) = ew e)
    (hz : ∀ e : Fin m, n ≤ e.val → ew' e = 0) (r : Fin 50000) :
    degAt dst' ew' r = degAt dst ew r := by
  unfold degAt
  congr 1
  exact sum_filter_castLE h _ _ _ _ (fun e => by rw [hd]) he hz

end Cert.Spec

end
-- ==== Proof.KDefs.lean ====
import proofs.«165428_j46729244180997_1_alg».proof.KernelIdeal
import proofs.«165428_j46729244180997_1_alg».proof.Proof.Spec
import Idealize.ShloMosaic.PureOps.Ideal

noncomputable section

namespace Cert.KernelIdeal.Val

open Cert.KernelIdeal Idealize.ShloMosaic

variable [Cert.KernelIdeal.Facts]
open Cert.KernelIdeal.Facts₀ Cert.KernelIdeal.Facts

variable (x1 : (⟨S2x3200000, .i32⟩ : BufTy).Contents (Elt Ideal)) (x2 : (⟨S3200000x1, .f32⟩ : BufTy).Contents (Elt Ideal))

def loops : (⟨S50000, .i32⟩ : BufTy).Contents (Elt Ideal) := iotaInDim S50000 32 0

def src0 : (⟨S3250000, .i32⟩ : BufTy).Contents (Elt Ideal) :=
  concatenate S3250000 0 [⟨S3200000, shapeCast _ (extractStridedSlice S1x3200000 ![0, 0] x1 slices_S2x3200000_S1x3200000_0_0) shapeCasts_S1x3200000_S3200000⟩, ⟨S50000, loops⟩] concatenates_S3200000_S50000_S3250000_d0

def dst0 : (⟨S3250000, .i32⟩ : BufTy).Contents (Elt Ideal) :=
  concatenate S3250000 0 [⟨S3200000, shapeCast _ (extractStridedSlice S1x3200000 ![1, 0] x1 slices_S2x3200000_S1x3200000_1_0) shapeCasts_S1x3200000_S3200000⟩, ⟨S50000, loops⟩] concatenates_S3200000_S50000_S3250000_d0

def ew0 : (⟨S3250000, .f32⟩ : BufTy).Contents (Elt Ideal) :=
  concatenate S3250000 0 [⟨S3200000, shapeCast _ x2 shapeCasts_S3200000x1_S3200000⟩, ⟨S50000, broadcastInDim S50000 ![] bcast_S_S50000 (constant (F := Ideal) S_ .f32 0x3F800000#32)⟩] concatenates_S3200000_S50000_S3250000_d0

def srcP : (⟨S3252224, .i32⟩ : BufTy).Contents (Elt Ideal) :=
  pad S3252224 ![0] ![2224] ![0] (src0 x1) (id (constantI S_ 32 0#32)) pads_S3250000_S3252224_022240 h_S_

def dstP : (⟨S3252224, .i32⟩ : BufTy).Contents (Elt Ideal) :=
  pad S3252224 ![0] ![2224] ![0] (dst0 x1) (id (constantI S_ 32 0#32)) pads_S3250000_S3252224_022240 h_S_

def ewP : (⟨S3252224, .f32⟩ : BufTy).Contents (Elt Ideal) :=
  pad S3252224 ![0] ![2224] ![0] (ew0 x2) (id (constant (F := Ideal) S_ .f32 0x00000000#32)) pads_S3250000_S3252224_022240 h_S_

def col (idx : (⟨S3252224, .i32⟩ : BufTy).Contents (Elt Ideal)) : (⟨S3252224x1, .i32⟩ : BufTy).Contents (Elt Ideal) :=
  broadcastInDim S3252224x1 ![0] bcast_S3252224_S3252224x1_0 idx

def deg : (⟨S50000, .f32⟩ : BufTy).Contents (Elt Ideal) :=
  Host.scatterAdd scatter_S50000_S3252224x1_S3252224_n_0_0_1 (broadcastInDim S50000 ![] bcast_S_S50000 (constant (F := Ideal) S_ .f32 0x00000000#32)) (col (dstP x1)) (ewP x2)

def dinvOf (dg : (⟨S50000, .f32⟩ : BufTy).Contents (Elt Ideal)) : (⟨S50000, .f32⟩ : BufTy).Contents (Elt Ideal) :=
  select (cmpf .ogt dg (broadcastInDim S50000 ![] bcast_S_S50000 (constant (F := Ideal) S_ .f32 0x00000000#32)))
    (Host.rsqrt (select (cmpf .ogt dg (broadcastInDim S50000 ![] bcast_S_S50000 (constant (F := Ideal) S_ .f32 0x00000000#32))) dg
      (broadcastInDim S50000 ![] bcast_S_S50000 (id (constant (F := Ideal) S_ .f32 0x3F800000#32)))))
    (broadcastInDim S50000 ![] bcast_S_S50000 (id (constant (F := Ideal) S_ .f32 0x00000000#32)))

def dinv : (⟨S50000, .f32⟩ : BufTy).Contents (Elt Ideal) := dinvOf (deg x1 x2)

def wrapCol (idx : (⟨S3252224, .i32⟩ : BufTy).Contents (Elt Ideal)) : (⟨S3252224x1, .i32⟩ : BufTy).Contents (Elt Ideal) :=
  col (select (cmpi .slt idx (broadcastInDim S3252224 ![] bcast_S_S3252224 (constantI S_ 32 0#32)))
    (addi idx (broadcastInDim S3252224 ![] bcast_S_S3252224 (constantI S_ 32 50000#32))) idx)

def fcol (v : (⟨S3252224, .f32⟩ : BufTy).Contents (Elt Ideal)) : (⟨S3252224x1, .f32⟩ : BufTy).Contents (Elt Ideal) :=
  broadcastInDim S3252224x1 ![0] bcast_S3252224_S3252224x1_0 v

def scal : (⟨S3252224x3, .f32⟩ : BufTy).Contents (Elt Ideal) :=
  concatenate S3252224x3 1 [⟨S3252224x1, fcol (Host.gather gather_S50000_S3252224x1_S3252224_n_0_n_n_0_1_1 (dinv x1 x2) (wrapCol (srcP x1)))⟩,
    ⟨S3252224x1, fcol (ewP x2)⟩,
    ⟨S3252224x1, fcol (Host.gather gather_S50000_S3252224x1_S3252224_n_0_n_n_0_1_1 (dinv x1 x2) (wrapCol (dstP x1)))⟩] concatenates_S3252224x1_S3252224x1_S3252224x1_S3252224x3_d1

def rowsOf (XW : (⟨S50000x64, .f32⟩ : BufTy).Contents (Elt Ideal)) : (⟨S3252224x64, .f32⟩ : BufTy).Contents (Elt Ideal) :=
  Host.gather gather_S50000x64_S3252224x1_S3252224x64_1_0_n_n_0_1_164 XW (wrapCol (srcP x1))

def agg (XW : (⟨S50000x64, .f32⟩ : BufTy).Contents (Elt Ideal)) : (⟨S50000x64, .f32⟩ : BufTy).Contents (Elt Ideal) :=
  Host.scatterAdd scatter_S50000x64_S3252224x1_S3252224x64_1_0_0_1 (broadcastInDim S50000x64 ![] bcast_S_S50000x64 (constant (F := Ideal) S_ .f32 0x00000000#32)) (col (dstP x1))
    (Cert.Spec.scaleRows (rowsOf x1 XW) (scal x1 x2))

def pool (x3 : (⟨S50000, .i32⟩ : BufTy).Contents (Elt Ideal)) (h : (⟨S50000x64, .f32⟩ : BufTy).Contents (Elt Ideal)) : (⟨S50x64, .f32⟩ : BufTy).Contents (Elt Ideal) :=
  Host.divf
    (Host.scatterAdd scatter_S50x64_S50000x1_S50000x64_1_0_0_1 (broadcastInDim S50x64 ![] bcast_S_S50x64 (constant (F := Ideal) S_ .f32 0x00000000#32))
      (broadcastInDim S50000x1 ![0] bcast_S50000_S50000x1_0 x3) h)
    (broadcastInDim S50x64 ![0, 1] bcast_S50x1_S50x64_0_1 (broadcastInDim S50x1 ![0] bcast_S50_S50x1_0
      (maximumf (Host.scatterAdd scatter_S50_S50000x1_S50000_n_0_0_1 (broadcastInDim S50 ![] bcast_S_S50 (constant (F := Ideal) S_ .f32 0x00000000#32))
          (broadcastInDim S50000x1 ![0] bcast_S50000_S50000x1_0 x3) (broadcastInDim S50000 ![] bcast_S_S50000 (constant (F := Ideal) S_ .f32 0x3F800000#32)))
        (broadcastInDim S50 ![] bcast_S_S50 (constant (F := Ideal) S_ .f32 0x3F800000#32)))))

def layer (h : (⟨S50000x64, .f32⟩ : BufTy).Contents (Elt Ideal)) (b : (⟨S64, .f32⟩ : BufTy).Contents (Elt Ideal)) : (⟨S50000x64, .f32⟩ : BufTy).Contents (Elt Ideal) :=
  Cert.Spec.biasRelu (agg x1 x2 h) (shapeCast _ b shapeCasts_S64_S1x64)

def result (x0 : (⟨S50000x5, .f32⟩ : BufTy).Contents (Elt Ideal)) (x3 : (⟨S50000, .i32⟩ : BufTy).Contents (Elt Ideal)) (x4 : (⟨S5x64, .f32⟩ : BufTy).Contents (Elt Ideal))
    (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S64x2, .f32⟩ : BufTy).Contents (Elt Ideal)) (x9 : (⟨S2, .f32⟩ : BufTy).Contents (Elt Ideal)) : (⟨S50x2, .f32⟩ : BufTy).Contents (Elt Ideal) :=
  Cert.Spec.affine (pool x3 (layer x1 x2 (Cert.Spec.mm (layer x1 x2 (Cert.Spec.mm x0 x4) x5) x6) x7)) x8 (shapeCast _ x9 shapeCasts_S2_S1x2)

end Cert.KernelIdeal.Val

end
-- ==== Proof.KChain1.lean ====
import proofs.«165428_j46729244180997_1_alg».proof.Proof.KernelIdeal.FrameFold
import proofs.«165428_j46729244180997_1_alg».proof.Proof.KDefs
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe

variable (m : (ℓ : Loc nD τ sig) → Buf (Elt Ideal) ℓ) (ρ : Dev nD → PrngReg) (c : Dev nD)

abbrev a1 : (⟨S2x3200000, .i32⟩ : BufTy).Contents (Elt Ideal) := m ((c.tc : Thread nD τ).loc main_arg1)
abbrev a2 : (⟨S3200000x1, .f32⟩ : BufTy).Contents (Elt Ideal) := m ((c.tc : Thread nD τ).loc main_arg2)

theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

macro "stretch_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

local notation "𝕍" => Valuation τ sig (Elt Ideal)

abbrev zN : FVec Ideal S50000 .f32 := broadcastInDim S50000 ![] bcast_S_S50000 (constant (F := Ideal) S_ .f32 0x00000000#32)

theorem s0_v4 (V : 𝕍) : (StableHlo.after hostOps0 V (Proc.devRef .tc main_v4) : IVec S3250000 32)
    = src0 (V (Proc.devRef .tc main_arg1)) := by
  after_results; rfl
theorem s0_v7 (V : 𝕍) : (StableHlo.after hostOps0 V (Proc.devRef .tc main_v7) : IVec S3250000 32)
    = dst0 (V (Proc.devRef .tc main_arg1)) := by
  after_results; rfl
theorem s0_v9 (V : 𝕍) : (StableHlo.after hostOps0 V (Proc.devRef .tc main_v9) : FVec Ideal S3250000 .f32)
    = ew0 (V (Proc.devRef .tc main_arg2)) := by
  after_results; rfl
theorem s0_c (V : 𝕍) : (StableHlo.after hostOps0 V (Proc.devRef .tc main_c) : IVec S_ 32) = constantI S_ 32 0#32 := by
  after_results
theorem s1_v10 (V : 𝕍) : (StableHlo.after hostOps0_1 V (Proc.devRef .tc main_v10) : IVec S3252224 32)
    = pad S3252224 ![0] ![2224] ![0] (V (Proc.devRef .tc main_v4) : IVec S3250000 32) (id (V (Proc.devRef .tc main_c) : IVec S_ 32))
        pads_S3250000_S3252224_022240 h_S_ := by
  after_results; rfl
theorem s2_c0 (V : 𝕍) : (StableHlo.after hostOps0_2 V (Proc.devRef .tc main_c_0) : IVec S_ 32) = constantI S_ 32 0#32 := by
  after_results
theorem s3_v11 (V : 𝕍) : (StableHlo.after hostOps0_3 V (Proc.devRef .tc main_v11) : IVec S3252224 32)
    = pad S3252224 ![0] ![2224] ![0] (V (Proc.devRef .tc main_v7) : IVec S3250000 32) (id (V (Proc.devRef .tc main_c_0) : IVec S_ 32))
        pads_S3250000_S3252224_022240 h_S_ := by
  after_results; rfl
theorem s4_cst1 (V : 𝕍) : (StableHlo.after hostOps0_4 V (Proc.devRef .tc main_cst_1) : FVec Ideal S_ .f32)
    = constant (F := Ideal) S_ .f32 0x00000000#32 := by
  after_results
theorem s5_v12 (V : 𝕍) : (StableHlo.after hostOps0_5 V (Proc.devRef .tc main_v12) : FVec Ideal S3252224 .f32)
    = pad S3252224 ![0] ![2224] ![0] (V (Proc.devRef .tc main_v9) : FVec Ideal S3250000 .f32) (id (V (Proc.devRef .tc main_cst_1) : FVec Ideal S_ .f32))
        pads_S3250000_S3252224_022240 h_S_ := by
  after_results; rfl

theorem W1_v4 : (W1 (F := Ideal) m ρ c (Proc.devRef .tc main_v4) : IVec S3250000 32) = src0 (a1 m c) := s0_v4 (W0 m ρ c)
theorem W1_v7 : (W1 (F := Ideal) m ρ c (Proc.devRef .tc main_v7) : IVec S3250000 32) = dst0 (a1 m c) := s0_v7 (W0 m ρ c)
theorem W1_v9 : (W1 (F := Ideal) m ρ c (Proc.devRef .tc main_v9) : FVec Ideal S3250000 .f32) = ew0 (a2 m c) := s0_v9 (W0 m ρ c)
theorem W1_c : (W1 (F := Ideal) m ρ c (Proc.devRef .tc main_c) : IVec S_ 32) = constantI S_ 32 0#32 := s0_c (W0 m ρ c)

theorem W2_v10 : (W2 (F := Ideal) m ρ c (Proc.devRef .tc main_v10) : IVec S3252224 32) = srcP (a1 m c) := by
  refine (s1_v10 (W1 m ρ c)).trans ?_
  unfold srcP
  rw [W1_v4 m ρ c, W1_c m ρ c]

theorem W3_c0 : (W3 (F := Ideal) m ρ c (Proc.devRef .tc main_c_0) : IVec S_ 32) = constantI S_ 32 0#32 := s2_c0 (W2 m ρ c)
theorem W3_v7 : (W3 (F := Ideal) m ρ c (Proc.devRef .tc main_v7) : IVec S3250000 32) = dst0 (a1 m c) :=
  (W3_of m ρ c main_v7 (by decide)).trans <| (W2_of m ρ c main_v7 (by decide)).trans <| W1_v7 m ρ c

theorem W4_v11 : (W4 (F := Ideal) m ρ c (Proc.devRef .tc main_v11) : IVec S3252224 32) = dstP (a1 m c) := by
  refine (s3_v11 (W3 m ρ c)).trans ?_
  unfold dstP
  rw [W3_v7 m ρ c, W3_c0 m ρ c]

theorem W5_cst1 : (W5 (F := Ideal) m ρ c (Proc.devRef .tc main_cst_1) : FVec Ideal S_ .f32) = constant (F := Ideal) S_ .f32 0x00000000#32 :=
  s4_cst1 (W4 m ρ c)
theorem W5_v9 : (W5 (F := Ideal) m ρ c (Proc.devRef .tc main_v9) : FVec Ideal S3250000 .f32) = ew0 (a2 m c) :=
  (W5_of m ρ c main_v9 (by decide)).trans <| (W4_of m ρ c main_v9 (by decide)).trans <| (W3_of m ρ c main_v9 (by decide)).trans <|
    (W2_of m ρ c main_v9 (by decide)).trans <| W1_v9 m ρ c

theorem W6_v12 : (W6 (F := Ideal) m ρ c (Proc.devRef .tc main_v12) : FVec Ideal S3252224 .f32) = ewP (a2 m c) := by
  refine (s5_v12 (W5 m ρ c)).trans ?_
  unfold ewP
  rw [W5_v9 m ρ c, W5_cst1 m ρ c]
theorem W6_v11 : (W6 (F := Ideal) m ρ c (Proc.devRef .tc main_v11) : IVec S3252224 32) = dstP (a1 m c) :=
  (W6_of m ρ c main_v11 (by decide)).trans <| (W5_of m ρ c main_v11 (by decide)).trans <| W4_v11 m ρ c

theorem s6_v15 (V : 𝕍) : (StableHlo.after hostOps0_6 V (Proc.devRef .tc main_v15) : FVec Ideal S50000 .f32)
    = Host.scatterAdd scatter_S50000_S3252224x1_S3252224_n_0_0_1 (broadcastInDim S50000 ![] bcast_S_S50000 (constant (F := Ideal) S_ .f32 0x00000000#32))
        (col (V (Proc.devRef .tc main_v11))) (V (Proc.devRef .tc main_v12) : FVec Ideal S3252224 .f32) := by
  after_results; rfl
theorem s6_v17 (V : 𝕍) : (StableHlo.after hostOps0_6 V (Proc.devRef .tc main_v17) : IVec S50000 1)
    = cmpf (F := Ideal) .ogt (Host.scatterAdd scatter_S50000_S3252224x1_S3252224_n_0_0_1 (broadcastInDim S50000 ![] bcast_S_S50000 (constant (F := Ideal) S_ .f32 0x00000000#32))
        (col (V (Proc.devRef .tc main_v11))) (V (Proc.devRef .tc main_v12) : FVec Ideal S3252224 .f32)) zN := by
  after_results; rfl
theorem s6_v19 (V : 𝕍) : (StableHlo.after hostOps0_6 V (Proc.devRef .tc main_v19) : IVec S50000 1)
    = cmpf (F := Ideal) .ogt (Host.scatterAdd scatter_S50000_S3252224x1_S3252224_n_0_0_1 (broadcastInDim S50000 ![] bcast_S_S50000 (constant (F := Ideal) S_ .f32 0x00000000#32))
        (col (V (Proc.devRef .tc main_v11))) (V (Proc.devRef .tc main_v12) : FVec Ideal S3252224 .f32)) zN := by
  after_results; rfl
theorem s6_cst5 (V : 𝕍) : (StableHlo.after hostOps0_6 V (Proc.devRef .tc main_cst_5) : FVec Ideal S_ .f32)
    = constant (F := Ideal) S_ .f32 0x3F800000#32 := by
  after_results
theorem s7_v20 (V : 𝕍) : (StableHlo.after hostOps0_7 V (Proc.devRef .tc main_v20) : FVec Ideal S50000 .f32)
    = select (V (Proc.devRef .tc main_v19) : IVec S50000 1) (V (Proc.devRef .tc main_v15) : FVec Ideal S50000 .f32)
        (broadcastInDim S50000 ![] bcast_S_S50000 (id (V (Proc.devRef .tc main_cst_5) : FVec Ideal S_ .f32))) := by
  after_results; rfl
theorem s8_v21 (V : 𝕍) : (StableHlo.after hostOps0_8 V (Proc.devRef .tc main_v21) : FVec Ideal S50000 .f32)
    = (Host.rsqrt (V (Proc.devRef .tc main_v20) : FVec Ideal S50000 .f32) : FVec Ideal S50000 .f32) := by
  after_results
theorem s8_cst6 (V : 𝕍) : (StableHlo.after hostOps0_8 V (Proc.devRef .tc main_cst_6) : FVec Ideal S_ .f32)
    = constant (F := Ideal) S_ .f32 0x00000000#32 := by
  after_results
theorem s9_v22 (V : 𝕍) : (StableHlo.after hostOps0_9 V (Proc.devRef .tc main_v22) : FVec Ideal S50000 .f32)
    = select (V (Proc.devRef .tc main_v17) : IVec S50000 1) (V (Proc.devRef .tc main_v21) : FVec Ideal S50000 .f32)
        (broadcastInDim S50000 ![] bcast_S_S50000 (id (V (Proc.devRef .tc main_cst_6) : FVec Ideal S_ .f32))) := by
  after_results; rfl

theorem W7_v15 : (W7 (F := Ideal) m ρ c (Proc.devRef .tc main_v15) : FVec Ideal S50000 .f32) = deg (a1 m c) (a2 m c) := by
  refine (s6_v15 (W6 m ρ c)).trans ?_
  unfold deg
  rw [W6_v11 m ρ c, W6_v12 m ρ c]
theorem W7_v17 : (W7 (F := Ideal) m ρ c (Proc.devRef .tc main_v17) : IVec S50000 1) = cmpf (F := Ideal) .ogt (deg (a1 m c) (a2 m c)) zN := by
  refine (s6_v17 (W6 m ρ c)).trans ?_
  unfold deg
  rw [W6_v11 m ρ c, W6_v12 m ρ c]
theorem W7_v19 : (W7 (F := Ideal) m ρ c (Proc.devRef .tc main_v19) : IVec S50000 1) = cmpf (F := Ideal) .ogt (deg (a1 m c) (a2 m c)) zN := by
  refine (s6_v19 (W6 m ρ c)).trans ?_
  unfold deg
  rw [W6_v11 m ρ c, W6_v12 m ρ c]
theorem W7_cst5 : (W7 (F := Ideal) m ρ c (Proc.devRef .tc main_cst_5) : FVec Ideal S_ .f32) = constant (F := Ideal) S_ .f32 0x3F800000#32 :=
  s6_cst5 (W6 m ρ c)

abbrev degSafe : FVec Ideal S50000 .f32 :=
  select (cmpf (F := Ideal) .ogt (deg (a1 m c) (a2 m c)) zN) (deg (a1 m c) (a2 m c))
    (broadcastInDim S50000 ![] bcast_S_S50000 (id (constant (F := Ideal) S_ .f32 0x3F800000#32)))

theorem W8_v20 : (W8 (F := Ideal) m ρ c (Proc.devRef .tc main_v20) : FVec Ideal S50000 .f32) = degSafe m c := by
  refine (s7_v20 (W7 m ρ c)).trans ?_
  rw [W7_v19 m ρ c, W7_v15 m ρ c, W7_cst5 m ρ c]
theorem W9_v21 : (W9 (F := Ideal) m ρ c (Proc.devRef .tc main_v21) : FVec Ideal S50000 .f32) = Host.rsqrt (degSafe m c) := by
  refine (s8_v21 (W8 m ρ c)).trans ?_
  rw [W8_v20 m ρ c]
theorem W9_cst6 : (W9 (F := Ideal) m ρ c (Proc.devRef .tc main_cst_6) : FVec Ideal S_ .f32) = constant (F := Ideal) S_ .f32 0x00000000#32 :=
  s8_cst6 (W8 m ρ c)
theorem W9_v17 : (W9 (F := Ideal) m ρ c (Proc.devRef .tc main_v17) : IVec S50000 1) = cmpf (F := Ideal) .ogt (deg (a1 m c) (a2 m c)) zN :=
  (W9_of m ρ c main_v17 (by decide)).trans <| (W8_of m ρ c main_v17 (by decide)).trans <| W7_v17 m ρ c

theorem W10_v22 : (W10 (F := Ideal) m ρ c (Proc.devRef .tc main_v22) : FVec Ideal S50000 .f32) = dinv (a1 m c) (a2 m c) := by
  refine (s9_v22 (W9 m ρ c)).trans ?_
  unfold dinv dinvOf
  rw [W9_v17 m ρ c, W9_v21 m ρ c, W9_cst6 m ρ c]

theorem W10_v10 : (W10 (F := Ideal) m ρ c (Proc.devRef .tc main_v10) : IVec S3252224 32) = srcP (a1 m c) :=
  (W10_of m ρ c main_v10 (by decide)).trans <| (W9_of m ρ c main_v10 (by decide)).trans <| (W8_of m ρ c main_v10 (by decide)).trans <|
    (W7_of m ρ c main_v10 (by decide)).trans <| (W6_of m ρ c main_v10 (by decide)).trans <| (W5_of m ρ c main_v10 (by decide)).trans <|
    (W4_of m ρ c main_v10 (by decide)).trans <| (W3_of m ρ c main_v10 (by decide)).trans <| W2_v10 m ρ c
theorem W10_v11 : (W10 (F := Ideal) m ρ c (Proc.devRef .tc main_v11) : IVec S3252224 32) = dstP (a1 m c) :=
  (W10_of m ρ c main_v11 (by decide)).trans <| (W9_of m ρ c main_v11 (by decide)).trans <| (W8_of m ρ c main_v11 (by decide)).trans <|
    (W7_of m ρ c main_v11 (by decide)).trans <| W6_v11 m ρ c
theorem W10_v12 : (W10 (F := Ideal) m ρ c (Proc.devRef .tc main_v12) : FVec Ideal S3252224 .f32) = ewP (a2 m c) :=
  (W10_of m ρ c main_v12 (by decide)).trans <| (W9_of m ρ c main_v12 (by decide)).trans <| (W8_of m ρ c main_v12 (by decide)).trans <|
    (W7_of m ρ c main_v12 (by decide)).trans <| W6_v12 m ρ c

set_option maxHeartbeats 4000000 in
theorem s10_v40 (V : 𝕍) : (StableHlo.after hostOps0_10 V (Proc.devRef .tc main_v40) : FVec Ideal S3252224x3 .f32)
    = concatenate S3252224x3 1
        [⟨S3252224x1, fcol (Host.gather gather_S50000_S3252224x1_S3252224_n_0_n_n_0_1_1 (V (Proc.devRef .tc main_v22) : FVec Ideal S50000 .f32) (wrapCol (V (Proc.devRef .tc main_v10))))⟩,
         ⟨S3252224x1, fcol (V (Proc.devRef .tc main_v12))⟩,
         ⟨S3252224x1, fcol (Host.gather gather_S50000_S3252224x1_S3252224_n_0_n_n_0_1_1 (V (Proc.devRef .tc main_v22) : FVec Ideal S50000 .f32) (wrapCol (V (Proc.devRef .tc main_v11))))⟩]
        concatenates_S3252224x1_S3252224x1_S3252224x1_S3252224x3_d1 := by
  stretch_results
  rfl

theorem W11_v40 : (W11 (F := Ideal) m ρ c (Proc.devRef .tc main_v40) : FVec Ideal S3252224x3 .f32) = scal (a1 m c) (a2 m c) := by
  refine (s10_v40 (W10 m ρ c)).trans ?_
  unfold scal
  rw [W10_v22 m ρ c, W10_v10 m ρ c, W10_v11 m ρ c, W10_v12 m ρ c]

theorem W11_v10 : (W11 (F := Ideal) m ρ c (Proc.devRef .tc main_v10) : IVec S3252224 32) = srcP (a1 m c) :=
  (W11_of m ρ c main_v10 (by decide)).trans <| W10_v10 m ρ c
theorem W11_v11 : (W11 (F := Ideal) m ρ c (Proc.devRef .tc main_v11) : IVec S3252224 32) = dstP (a1 m c) :=
  (W11_of m ρ c main_v11 (by decide)).trans <| W10_v11 m ρ c

end Cert.KernelIdeal.Val

end
-- ==== Proof.LibDense.lean ====
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

private theorem coord_val_congr {s : Shape} (j : s.Idx) (p q : ℕ) (hp : p < s.rank) (hq : q < s.rank) (h : p = q) :
    (j ⟨p, hp⟩).val = (j ⟨q, hq⟩).val := by subst h; rfl

theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.ValR0.lean ====
import proofs.«165428_j46729244180997_1_alg».proof.Proof.KernelIdeal.FrameR0
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem pay0_apply (x0 : Vec Ideal S5000x5 .f32) (x1 : Vec Ideal S5x64 .f32) (p : Fin 5000) (q : Fin 64) :
    k0_pay1 x0 x1 (ix2 p q) = ∑ k : Fin 5, x0 (ix2 p k) * x1 (ix2 k q) := by
  unfold k0_pay1
  exact Cert.LibDense.matmul_zero_apply dot_S5000x5_S5x64_S5000x64_1_0_0_1_n_n none rfl rfl rfl rfl rfl rfl _ _ p q

theorem block0_apply (A : FVec Ideal S50000x5 .f32) (W : FVec Ideal S5x64 .f32) (x0 : Vec Ideal S5000x5 .f32) (x1 : Vec Ideal S5x64 .f32) (n : ℕ)
    (h0 : ∀ (y : S5000x5.Idx) (i : S50000x5.Idx), (i 0).val = n * 5000 + (y 0).val → (i 1).val = (y 1).val → x0 y = A i)
    (h1 : ∀ y : S5x64.Idx, x1 y = W y)
    (y : S5000x64.Idx) (i : S50000x64.Idx) (hi0 : (i 0).val = n * 5000 + (y 0).val) (hi1 : (i 1).val = (y 1).val) :
    k0_pay1 x0 x1 y = Cert.Spec.mm A W i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  rw [pay0_apply, Cert.Spec.mm_apply]
  refine Finset.sum_congr rfl fun k _ => ?_
  rw [h0 (ix2 p k) (ix2 r k) hi0 rfl, h1]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem iblk0_0_apply (c : Dev nD) (t : Fin cfg0.N) (y : S5000x5.Idx) (i : S50000x5.Idx)
    (hi0 : (i 0).val = t.val * 5000 + (y 0).val) (hi1 : (i 1).val = (y 1).val) :
    (iblk0 V c 0 t : Vec Ideal S5000x5 .f32) y = (V c main_arg0 : FVec Ideal S50000x5 .f32) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, hi0]; omega
  | ⟨1, _⟩ => show win0_0.index t (1 : Fin 2) * 5 + 1 * (y 1).val = (i 1).val; rw [e1, hi1]; omega

theorem iblk0_1_apply (c : Dev nD) (t : Fin cfg0.N) (y : S5x64.Idx) :
    (iblk0 V c 1 t : Vec Ideal S5x64 .f32) y = (V c main_arg4 : FVec Ideal S5x64 .f32) y := by
  obtain ⟨-, -, e2, e3, -⟩ := idx_facts0 t
  unfold iblk0
  rw [View.read_apply]
  show V c main_arg4 _ = V c main_arg4 _
  congr 1
  funext a
  apply Fin.ext
  match a with
  | ⟨0, _⟩ => show win0_1.index t (0 : Fin 2) * 5 + 1 * (y 0).val = (y 0).val; rw [e2]; omega
  | ⟨1, _⟩ => show win0_1.index t (1 : Fin 2) * 64 + 1 * (y 1).val = (y 1).val; rw [e3]; omega

theorem flushed0_eq (c : Dev nD) (t : Fin cfg0.N) :
    (dat0 (F := Ideal) V c).flushed 2 t = ((cfg0.win 2).blk t).view.read (Elt Ideal) (Cert.Spec.mm (V c main_arg0) (V c main_arg4)) := by
  show (cfg0.win 2).cut (grid0.coords t) ((dat0 V c).after 2 t) = _
  rw [after0_2]
  unfold out0_2
  rw [View.canon_unit_zero Cert.Spec.hz]
  simp only [View.ld_unit_zero (S := S5000x5) Cert.Spec.hz, View.ld_unit_zero (S := S5x64) Cert.Spec.hz]
  obtain ⟨-, -, -, -, e4, e5⟩ := idx_facts0 t
  funext j
  show k0_pay1 (iblk0 V c 0 t) (iblk0 V c 1 t) ((cfg0.win 2).xinj (grid0.coords t) j)
    = Cert.Spec.mm (V c main_arg0) (V c main_arg4) (((cfg0.win 2).blk t).view.emb j)
  refine block0_apply _ _ _ _ t.val (fun y i h0 h1 => iblk0_0_apply V c t y i h0 h1) (fun y => iblk0_1_apply V c t y) _ _ ?_ ?_
  · show win0_2.index t (0 : Fin 2) * 5000 + 1 * (j 0).val = t.val * 5000 + (j 0).val; rw [e4]; omega
  · show win0_2.index t (1 : Fin 2) * 64 + 1 * (j 1).val = (j 1).val; rw [e5]; omega

theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v41).slice (win0_2.rect t)).set ↔ _
  rw [View.set_slice_whole, Rect.mem_set_unit]
  exact Iff.rfl

theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

theorem arr0 (c : Dev nD) :
    (dat0 (F := Ideal) V c).arrAt 2 cfg0.N = Cert.Spec.mm (V c main_arg0) (V c main_arg4) :=
  (dat0 (F := Ideal) V c).arrAt_eq_of_cover 2 (Cert.Spec.mm (V c main_arg0) (V c main_arg4)) (fun t _ => flushed0_eq V c t) cover0

end Cert.KernelIdeal.Val

end
-- ==== Proof.ValR1.lean ====
import proofs.«165428_j46729244180997_1_alg».proof.Proof.KernelIdeal.FrameR1
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem pay1_apply (a : Vec Ideal S8192x3 .f32) (x : Vec Ideal S8192x64 .f32) (p : Fin 8192) (q : Fin 64) :
    k1_pay1 a x (ix2 p q) = x (ix2 p q) * ((a (ix2 p 0) * a (ix2 p 1)) * a (ix2 p 2)) := by
  unfold k1_pay1
  rw [mulf_apply, shapeCast_self, shapeCast_self]
  rw [broadcastTo_apply _ broadcasts_S8192x1_S8192x64 (ix2 p q) (ix2 p (0 : Fin 1)) (fun ax => by
    match ax with
    | ⟨0, _⟩ => rfl
    | ⟨1, _⟩ => rfl)]
  rw [mulf_apply, mulf_apply,
    slice2_axis1_apply 0 a slices_S8192x3_o0_0_S8192x1 p 0 0 rfl,
    slice2_axis1_apply 1 a slices_S8192x3_o0_1_S8192x1 p 0 1 rfl,
    slice2_axis1_apply 2 a slices_S8192x3_o0_2_S8192x1 p 0 2 rfl]

theorem scale_block1 (A0 : FVec Ideal ⟨2, ![3252224, 64]⟩ .f32) (A1 : FVec Ideal ⟨2, ![3252224, 3]⟩ .f32)
    (x0 : Vec Ideal S8192x64 .f32) (x1 : Vec Ideal S8192x3 .f32) (T : ℕ)
    (h0 : ∀ (p : Fin 8192) (q : Fin 64) (k : Fin 3252224), k.val = T * 8192 + p.val → x0 (ix2 p q) = A0 (ix2 k q))
    (h1 : ∀ (p : Fin 8192) (q : Fin 3) (k : Fin 3252224), k.val = T * 8192 + p.val → x1 (ix2 p q) = A1 (ix2 k q))
    (p : Fin 8192) (q : Fin 64) (k : Fin 3252224) (hk : k.val = T * 8192 + p.val) :
    k1_pay1 x1 x0 (ix2 p q) = Cert.Spec.scaleRows A0 A1 (ix2 k q) := by
  rw [pay1_apply, Cert.Spec.scaleRows_apply, h0 p q k hk, h1 p 0 k hk, h1 p 1 k hk, h1 p 2 k hk]

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem iblk1_0_apply (c : Dev nD) (t : Fin cfg1.N) (p : Fin 8192) (q : Fin 64) (k : Fin 3252224) (hk : k.val = t.val * 8192 + p.val) :
    (iblk1 V c 0 t : Vec Ideal S8192x64 .f32) (ix2 p q) = (V c main_v48 : FVec Ideal ⟨2, ![3252224, 64]⟩ .f32) (ix2 k q) := by
  obtain ⟨e0, e1, -⟩ := idx_facts1 t
  unfold iblk1
  rw [View.read_apply]
  show V c main_v48 _ = V c main_v48 _
  congr 1
  funext a; apply Fin.ext
  match a with
  | ⟨0, _⟩ => show win1_0.index t 0 * 8192 + 1 * p.val = k.val; rw [e0, hk]; omega
  | ⟨1, _⟩ => show win1_0.index t 1 * 64 + 1 * q.val = q.val; rw [e1]; omega

theorem iblk1_1_apply (c : Dev nD) (t : Fin cfg1.N) (p : Fin 8192) (q : Fin 3) (k : Fin 3252224) (hk : k.val = t.val * 8192 + p.val) :
    (iblk1 V c 1 t : Vec Ideal S8192x3 .f32) (ix2 p q) = (V c main_v40 : FVec Ideal ⟨2, ![3252224, 3]⟩ .f32) (ix2 k q) := by
  obtain ⟨-, -, e2, e3, -⟩ := idx_facts1 t
  unfold iblk1
  rw [View.read_apply]
  show V c main_v40 _ = V c main_v40 _
  congr 1
  funext a; apply Fin.ext
  match a with
  | ⟨0, _⟩ => show win1_1.index t 0 * 8192 + 1 * p.val = k.val; rw [e2, hk]; omega
  | ⟨1, _⟩ => show win1_1.index t 1 * 3 + 1 * q.val = q.val; rw [e3]; omega

theorem flushed1_eq (c : Dev nD) (t : Fin cfg1.N) :
    (dat1 V c).flushed 2 t = ((cfg1.win 2).blk t).view.read (Elt Ideal) (Cert.Spec.scaleRows (V c main_v48) (V c main_v40)) := by
  show (cfg1.win 2).cut (grid1.coords t) ((dat1 V c).after 2 t) = _
  rw [after1_2]
  unfold out1_2
  rw [View.canon_unit_zero Cert.Spec.hz]
  simp only [View.ld_unit_zero (S := S8192x64) Cert.Spec.hz, View.ld_unit_zero (S := S8192x3) Cert.Spec.hz]
  obtain ⟨-, -, -, -, e4, e5⟩ := idx_facts1 t
  funext j
  obtain ⟨p, q, rfl⟩ : ∃ (p : Fin 8192) (q : Fin 64), j = ix2 p q := ⟨j 0, j 1, eq_ix2 j⟩
  show k1_pay1 (iblk1 V c 1 t) (iblk1 V c 0 t) (ix2 p q) = Cert.Spec.scaleRows (V c main_v48) (V c main_v40) (((cfg1.win 2).blk t).view.emb (ix2 p q))
  have hN : cfg1.N = 397 := N_1
  have hk : t.val * 8192 + p.val < 3252224 := by have := t.isLt; omega
  have hemb : ((cfg1.win 2).blk t).view.emb (ix2 p q) = ix2 (⟨t.val * 8192 + p.val, hk⟩ : Fin 3252224) q := by
    funext a; apply Fin.ext
    match a with
    | ⟨0, _⟩ => show win1_2.index t 0 * 8192 + 1 * p.val = t.val * 8192 + p.val; rw [e4]; omega
    | ⟨1, _⟩ => show win1_2.index t 1 * 64 + 1 * q.val = q.val; rw [e5]; omega
  rw [hemb]
  exact scale_block1 _ _ _ _ t.val (fun p q k hk => iblk1_0_apply V c t p q k hk) (fun p q k hk => iblk1_1_apply V c t p q k hk) p q _ rfl

theorem mem_blk1 (t : Fin cfg1.N) (i : S3252224x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v49).slice (win1_2.rect t)).set ↔ _
  rw [View.set_slice_whole, Rect.mem_set_unit]
  exact Iff.rfl

theorem cover1 (i : S3252224x64.Idx) : ∃ t : Fin cfg1.N, (cfg1.win 2).flush t = true ∧ i ∈ ((cfg1.win 2).blk t).view.set := by
  have hi0 : (i 0).val < 3252224 := (i 0).isLt
  have hi1 : (i 1).val < 64 := (i 1).isLt
  have hN : cfg1.N = 397 := N_1
  have ht : (i 0).val / 8192 < cfg1.N := by rw [hN]; omega
  obtain ⟨-, -, -, -, e4, e5⟩ := idx_facts1 ⟨(i 0).val / 8192, ht⟩
  refine ⟨⟨(i 0).val / 8192, ht⟩, flush1_2 _, ?_⟩
  rw [mem_blk1]
  intro a
  match a with
  | ⟨0, _⟩ =>
    show win1_2.index ⟨(i 0).val / 8192, ht⟩ 0 * 8192 ≤ (i 0).val ∧ (i 0).val < win1_2.index ⟨(i 0).val / 8192, ht⟩ 0 * 8192 + 8192
    rw [e4]; show (i 0).val / 8192 * 8192 ≤ (i 0).val ∧ (i 0).val < (i 0).val / 8192 * 8192 + 8192; omega
  | ⟨1, _⟩ =>
    show win1_2.index ⟨(i 0).val / 8192, ht⟩ 1 * 64 ≤ (i 1).val ∧ (i 1).val < win1_2.index ⟨(i 0).val / 8192, ht⟩ 1 * 64 + 64
    rw [e5]; omega

theorem arr1 (c : Dev nD) :
    (dat1 (F := Ideal) V c).arrAt 2 cfg1.N = Cert.Spec.scaleRows (V c main_v48) (V c main_v40) :=
  (dat1 V c).arrAt_eq_of_cover 2 _ (fun t _ => flushed1_eq V c t) cover1

end Cert.KernelIdeal.Val

end
-- ==== Proof.ValR2.lean ====
import proofs.«165428_j46729244180997_1_alg».proof.Proof.KernelIdeal.FrameR2
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem pay2_apply (x : Vec Ideal S5000x64 .f32) (b : Vec Ideal S1x64 .f32) (p : Fin 5000) (q : Fin 64) :
    k2_pay1 x b (ix2 p q) = max (x (ix2 p q) + b (ix2 0 q)) Cert.Spec.z32 := by
  unfold k2_pay1
  rw [maximumf_apply, addf_apply, shapeCast_self, shapeCast_self, broadcastTo_1b_ab_apply, broadcast_apply]
  rfl

theorem bias_block2 (A0 : FVec Ideal ⟨2, ![50000, 64]⟩ .f32) (B : FVec Ideal ⟨2, ![1, 64]⟩ .f32)
    (x0 : Vec Ideal S5000x64 .f32) (x1 : Vec Ideal S1x64 .f32) (T : ℕ)
    (h0 : ∀ (p : Fin 5000) (q : Fin 64) (k : Fin 50000), k.val = T * 5000 + p.val → x0 (ix2 p q) = A0 (ix2 k q))
    (h1 : ∀ q : Fin 64, x1 (ix2 0 q) = B (ix2 0 q))
    (p : Fin 5000) (q : Fin 64) (k : Fin 50000) (hk : k.val = T * 5000 + p.val) :
    k2_pay1 x0 x1 (ix2 p q) = Cert.Spec.biasRelu A0 B (ix2 k q) := by
  rw [pay2_apply, Cert.Spec.biasRelu_apply, h0 p q k hk, h1 q]

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem iblk2_0_apply (c : Dev nD) (t : Fin cfg2.N) (p : Fin 5000) (q : Fin 64) (k : Fin 50000) (hk : k.val = t.val * 5000 + p.val) :
    (iblk2 V c 0 t : Vec Ideal S5000x64 .f32) (ix2 p q) = (V c main_v52 : FVec Ideal ⟨2, ![50000, 64]⟩ .f32) (ix2 k q) := by
  obtain ⟨e0, e1, -⟩ := idx_facts2 t
  unfold iblk2
  rw [View.read_apply]
  show V c main_v52 _ = V c main_v52 _
  congr 1
  funext a; apply Fin.ext
  match a with
  | ⟨0, _⟩ => show win2_0.index t 0 * 5000 + 1 * p.val = k.val; rw [e0, hk]; omega
  | ⟨1, _⟩ => show win2_0.index t 1 * 64 + 1 * q.val = q.val; rw [e1]; omega

theorem iblk2_1_apply (c : Dev nD) (t : Fin cfg2.N) (q : Fin 64) :
    (iblk2 V c 1 t : Vec Ideal S1x64 .f32) (ix2 0 q) = (V c main_v53 : FVec Ideal ⟨2, ![1, 64]⟩ .f32) (ix2 0 q) := by
  obtain ⟨-, -, e2, e3, -⟩ := idx_facts2 t
  unfold iblk2
  rw [View.read_apply]
  show V c main_v53 _ = V c main_v53 _
  congr 1
  funext a; apply Fin.ext
  match a with
  | ⟨0, _⟩ => show win2_1.index t 0 * 1 + 1 * (0 : Fin 1).val = (0 : Fin 1).val; rw [e2]; rfl
  | ⟨1, _⟩ => show win2_1.index t 1 * 64 + 1 * q.val = q.val; rw [e3]; omega

theorem flushed2_eq (c : Dev nD) (t : Fin cfg2.N) :
    (dat2 V c).flushed 2 t = ((cfg2.win 2).blk t).view.read (Elt Ideal) (Cert.Spec.biasRelu (V c main_v52) (V c main_v53)) := by
  show (cfg2.win 2).cut (grid2.coords t) ((dat2 V c).after 2 t) = _
  rw [after2_2]
  unfold out2_2
  rw [View.canon_unit_zero Cert.Spec.hz]
  simp only [View.ld_unit_zero (S := S5000x64) Cert.Spec.hz, View.ld_unit_zero (S := S1x64) Cert.Spec.hz]
  obtain ⟨-, -, -, -, e4, e5⟩ := idx_facts2 t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q) = Cert.Spec.biasRelu (V c main_v52) (V c main_v53) (((cfg2.win 2).blk t).view.emb (ix2 p q))
  have hN : cfg2.N = 10 := N_2
  have hk : t.val * 5000 + p.val < 50000 := by have := t.isLt; omega
  have hemb : ((cfg2.win 2).blk t).view.emb (ix2 p q) = ix2 (⟨t.val * 5000 + p.val, hk⟩ : Fin 50000) q := by
    funext a; apply Fin.ext
    match a with
    | ⟨0, _⟩ => show win2_2.index t 0 * 5000 + 1 * p.val = t.val * 5000 + p.val; rw [e4]; omega
    | ⟨1, _⟩ => show win2_2.index t 1 * 64 + 1 * q.val = q.val; rw [e5]; omega
  rw [hemb]
  exact bias_block2 _ _ _ _ t.val (fun p q k hk => iblk2_0_apply V c t p q k hk) (fun q => iblk2_1_apply V c t q) p q _ rfl

theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v54).slice (win2_2.rect t)).set ↔ _
  rw [View.set_slice_whole, Rect.mem_set_unit]
  exact Iff.rfl

theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 64 ≤ (i 1).val ∧ (i 1).val < win2_2.index ⟨(i 0).val / 5000, ht⟩ 1 * 64 + 64
    rw [e5]; omega

theorem arr2 (c : Dev nD) :
    (dat2 (F := Ideal) V c).arrAt 2 cfg2.N = Cert.Spec.biasRelu (V c main_v52) (V c main_v53) :=
  (dat2 V c).arrAt_eq_of_cover 2 _ (fun t _ => flushed2_eq V c t) cover2

end Cert.KernelIdeal.Val

end
-- ==== Proof.KChain2.lean ====
import proofs.«165428_j46729244180997_1_alg».proof.Proof.KChain1
import proofs.«165428_j46729244180997_1_alg».proof.Proof.ValR0
import proofs.«165428_j46729244180997_1_alg».proof.Proof.ValR1
import proofs.«165428_j46729244180997_1_alg».proof.Proof.ValR2

set_option maxRecDepth 16384

noncomputable section

namespace Cert.KernelIdeal.Val

open Cert.KernelIdeal Cert.KernelIdeal.Gen Cert.KernelIdeal.Hand
open Idealize.ShloMosaic Idealize.ShloMosaic.TcCoe

variable (m : (ℓ : Loc nD τ sig) → Buf (Elt Ideal) ℓ) (ρ : Dev nD → PrngReg) (c : Dev nD)

local notation "𝕍" => Valuation τ sig (Elt Ideal)

abbrev a0 : FVec Ideal S50000x5 .f32 := m ((c.tc : Thread nD τ).loc main_arg0)
abbrev a4 : FVec Ideal S5x64 .f32 := m ((c.tc : Thread nD τ).loc main_arg4)
abbrev a5 : FVec Ideal S64 .f32 := m ((c.tc : Thread nD τ).loc main_arg5)

abbrev xw0 : FVec Ideal S50000x64 .f32 := Cert.Spec.mm (a0 m c) (a4 m c)

theorem W11_arg0 : (W11 (F := Ideal) m ρ c (Proc.devRef .tc main_arg0) : FVec Ideal S50000x5 .f32) = a0 m c :=
  W11_launch m ρ c (by decide) (by decide)
theorem W11_arg4 : (W11 (F := Ideal) m ρ c (Proc.devRef .tc main_arg4) : FVec Ideal S5x64 .f32) = a4 m c :=
  W11_launch m ρ c (by decide) (by decide)

theorem W12_v41 : (W12 (F := Ideal) m ρ c (Proc.devRef .tc main_v41) : FVec Ideal S50000x64 .f32) = xw0 m c := by
  refine (W12_arr m ρ c 2).trans ?_
  refine (arr0 (VE0 m ρ) c).trans ?_
  show Cert.Spec.mm (W11 (F := Ideal) m ρ c (Proc.devRef .tc main_arg0)) (W11 (F := Ideal) m ρ c (Proc.devRef .tc main_arg4)) = _
  rw [W11_arg0 m ρ c, W11_arg4 m ρ c]

theorem s11_v48 (V : 𝕍) : (StableHlo.after hostOps1 V (Proc.devRef .tc main_v48) : FVec Ideal S3252224x64 .f32)
    = Host.gather gather_S50000x64_S3252224x1_S3252224x64_1_0_n_n_0_1_164 (V (Proc.devRef .tc main_v41) : FVec Ideal S50000x64 .f32)
        (wrapCol (V (Proc.devRef .tc main_v10))) := by
  after_results; rfl

theorem W12_v10 : (W12 (F := Ideal) m ρ c (Proc.devRef .tc main_v10) : IVec S3252224 32) = srcP (a1 m c) :=
  (W12_of_ne m ρ c main_v10 (by decide)).trans <| W11_v10 m ρ c

theorem W13_v48 : (W13 (F := Ideal) m ρ c (Proc.devRef .tc main_v48) : FVec Ideal S3252224x64 .f32) = rowsOf (a1 m c) (xw0 m c) := by
  refine (s11_v48 (W12 m ρ c)).trans ?_
  unfold rowsOf
  rw [W12_v41 m ρ c, W12_v10 m ρ c]

theorem W13_v40 : (W13 (F := Ideal) m ρ c (Proc.devRef .tc main_v40) : FVec Ideal S3252224x3 .f32) = scal (a1 m c) (a2 m c) :=
  (W13_of m ρ c main_v40 (by decide)).trans <| (W12_of_ne m ρ c main_v40 (by decide)).trans <| W11_v40 m ρ c

theorem W14_v49 : (W14 (F := Ideal) m ρ c (Proc.devRef .tc main_v49) : FVec Ideal S3252224x64 .f32)
    = Cert.Spec.scaleRows (rowsOf (a1 m c) (xw0 m c)) (scal (a1 m c) (a2 m c)) := by
  refine (W14_arr m ρ c 2).trans ?_
  refine (arr1 (VE1 m ρ) c).trans ?_
  show Cert.Spec.scaleRows (W13 (F := Ideal) m ρ c (Proc.devRef .tc main_v48)) (W13 (F := Ideal) m ρ c (Proc.devRef .tc main_v40)) = _
  rw [W13_v48 m ρ c, W13_v40 m ρ c]

theorem s12_v52 (V : 𝕍) : (StableHlo.after hostOps2 V (Proc.devRef .tc main_v52) : FVec Ideal S50000x64 .f32)
    = Host.scatterAdd scatter_S50000x64_S3252224x1_S3252224x64_1_0_0_1 (broadcastInDim S50000x64 ![] bcast_S_S50000x64 (constant (F := Ideal) S_ .f32 0x00000000#32))
        (col (V (Proc.devRef .tc main_v11))) (V (Proc.devRef .tc main_v49) : FVec Ideal S3252224x64 .f32) := by
  after_results; rfl
theorem s12_v53 (V : 𝕍) : (StableHlo.after hostOps2 V (Proc.devRef .tc main_v53) : FVec Ideal S1x64 .f32)
    = shapeCast S1x64 (V (Proc.devRef .tc main_arg5) : FVec Ideal S64 .f32) shapeCasts_S64_S1x64 := by
  after_results; rfl

theorem W14_v11 : (W14 (F := Ideal) m ρ c (Proc.devRef .tc main_v11) : IVec S3252224 32) = dstP (a1 m c) :=
  (W14_of_ne m ρ c main_v11 (by decide)).trans <| (W13_of m ρ c main_v11 (by decide)).trans <| (W12_of_ne m ρ c main_v11 (by decide)).trans <|
    W11_v11 m ρ c

theorem W14_arg5 : (W14 (F := Ideal) m ρ c (Proc.devRef .tc main_arg5) : FVec Ideal S64 .f32) = a5 m c :=
  W14_launch m ρ c (by decide) (by decide)

theorem W15_v52 : (W15 (F := Ideal) m ρ c (Proc.devRef .tc main_v52) : FVec Ideal S50000x64 .f32) = agg (a1 m c) (a2 m c) (xw0 m c) := by
  refine (s12_v52 (W14 m ρ c)).trans ?_
  unfold agg
  rw [W14_v11 m ρ c, W14_v49 m ρ c]
theorem W15_v53 : (W15 (F := Ideal) m ρ c (Proc.devRef .tc main_v53) : FVec Ideal S1x64 .f32) = shapeCast S1x64 (a5 m c) shapeCasts_S64_S1x64 := by
  refine (s12_v53 (W14 m ρ c)).trans ?_
  rw [W14_arg5 m ρ c]

theorem W16_v54 : (W16 (F := Ideal) m ρ c (Proc.devRef .tc main_v54) : (⟨S50000x64, .f32⟩ : BufTy).Contents (Elt Ideal))
    = layer (a1 m c) (a2 m c) (Cert.Spec.mm (m ((c.tc : Thread nD τ).loc main_arg0)) (m ((c.tc : Thread nD τ).loc main_arg4)))
        (m ((c.tc : Thread nD τ).loc main_arg5)) := by
  refine (W16_arr m ρ c 2).trans ?_
  refine (arr2 (VE2 m ρ) c).trans ?_
  show Cert.Spec.biasRelu (W15 (F := Ideal) m ρ c (Proc.devRef .tc main_v52)) (W15 (F := Ideal) m ρ c (Proc.devRef .tc main_v53)) = _
  rw [W15_v52 m ρ c, W15_v53 m ρ c]
  rfl

theorem W16_v10 : (W16 (F := Ideal) m ρ c (Proc.devRef .tc main_v10) : IVec S3252224 32) = srcP (a1 m c) :=
  (W16_of_ne m ρ c main_v10 (by decide)).trans <| (W15_of m ρ c main_v10 (by decide)).trans <| (W14_of_ne m ρ c main_v10 (by decide)).trans <|
    (W13_of m ρ c main_v10 (by decide)).trans <| W12_v10 m ρ c
theorem W16_v11 : (W16 (F := Ideal) m ρ c (Proc.devRef .tc main_v11) : IVec S3252224 32) = dstP (a1 m c) :=
  (W16_of_ne m ρ c main_v11 (by decide)).trans <| (W15_of m ρ c main_v11 (by decide)).trans <| W14_v11 m ρ c

theorem W14_keeps_v40 : W14 (F := Ideal) m ρ c (Proc.devRef .tc main_v40) = W13 m ρ c (Proc.devRef .tc main_v40) :=
  (W14_arr m ρ c 1).trans (((dat1 (VE1 m ρ) c).arrAt_in 1 rfl _).trans (A_eq1 (VE1 m ρ) c 1))
theorem W16_v40 : (W16 (F := Ideal) m ρ c (Proc.devRef .tc main_v40) : FVec Ideal S3252224x3 .f32) = scal (a1 m c) (a2 m c) :=
  (W16_of_ne m ρ c main_v40 (by decide)).trans <| (W15_of m ρ c main_v40 (by decide)).trans <| (W14_keeps_v40 m ρ c).trans <|
    W13_v40 m ρ c

end Cert.KernelIdeal.Val

end
-- ==== Proof.ValR3.lean ====
import proofs.«165428_j46729244180997_1_alg».proof.Proof.KernelIdeal.FrameR3
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem pay3_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  simp only [shapeCast_self]
  exact Cert.LibDense.matmul_zero_apply dot_S5000x64_S64x64_S5000x64_1_0_0_1_n_n none rfl rfl rfl rfl rfl rfl _ _ p q

theorem block3_apply (A : FVec Ideal S50000x64 .f32) (W : FVec Ideal S64x64 .f32) (x0 : Vec Ideal S5000x64 .f32) (x1 : Vec Ideal S64x64 .f32) (n : ℕ)
    (h0 : ∀ (y : S5000x64.Idx) (i : S50000x64.Idx), (i 0).val = n * 5000 + (y 0).val → (i 1).val = (y 1).val → x0 y = A i)
    (h1 : ∀ y : S64x64.Idx, x1 y = W y)
    (y : S5000x64.Idx) (i : S50000x64.Idx) (hi0 : (i 0).val = n * 5000 + (y 0).val) (hi1 : (i 1).val = (y 1).val) :
    k3_pay1 x0 x1 y = Cert.Spec.mm A W i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  rw [pay3_apply, Cert.Spec.mm_apply]
  refine Finset.sum_congr rfl fun k _ => ?_
  rw [h0 (ix2 p k) (ix2 r k) hi0 rfl, h1]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

theorem iblk3_0_apply (c : Dev nD) (t : Fin cfg3.N) (y : S5000x64.Idx) (i : S50000x64.Idx)
    (hi0 : (i 0).val = t.val * 5000 + (y 0).val) (hi1 : (i 1).val = (y 1).val) :
    (iblk3 V c 0 t : Vec Ideal S5000x64 .f32) y = (V c main_v54 : FVec Ideal S50000x64 .f32) i := by
  obtain ⟨e0, e1, -⟩ := idx_facts3 t
  unfold iblk3
  rw [View.read_apply]
  show V c main_v54 _ = V c main_v54 _
  congr 1
  funext a
  apply Fin.ext
  match a with
  | ⟨0, _⟩ => show win3_0.index t (0 : Fin 2) * 5000 + 1 * (y 0).val = (i 0).val; rw [e0, hi0]; omega
  | ⟨1, _⟩ => show win3_0.index t (1 : Fin 2) * 64 + 1 * (y 1).val = (i 1).val; rw [e1, hi1]; omega

theorem iblk3_1_apply (c : Dev nD) (t : Fin cfg3.N) (y : S64x64.Idx) :
    (iblk3 V c 1 t : Vec Ideal S64x64 .f32) y = (V c main_arg6 : FVec Ideal S64x64 .f32) y := by
  obtain ⟨-, -, e2, e3, -⟩ := idx_facts3 t
  unfold iblk3
  rw [View.read_apply]
  show V c main_arg6 _ = V c main_arg6 _
  congr 1
  funext a
  apply Fin.ext
  match a with
  | ⟨0, _⟩ => show win3_1.index t (0 : Fin 2) * 64 + 1 * (y 0).val = (y 0).val; rw [e2]; omega
  | ⟨1, _⟩ => show win3_1.index t (1 : Fin 2) * 64 + 1 * (y 1).val = (y 1).val; rw [e3]; omega

theorem flushed3_eq (c : Dev nD) (t : Fin cfg3.N) :
    (dat3 (F := Ideal) V c).flushed 2 t = ((cfg3.win 2).blk t).view.read (Elt Ideal) (Cert.Spec.mm (V c main_v54) (V c main_arg6)) := by
  show (cfg3.win 2).cut (grid3.coords t) ((dat3 V c).after 2 t) = _
  rw [after3_2]
  unfold out3_2
  rw [View.canon_unit_zero Cert.Spec.hz]
  simp only [View.ld_unit_zero (S := S5000x64) Cert.Spec.hz, View.ld_unit_zero (S := S64x64) Cert.Spec.hz]
  obtain ⟨-, -, -, -, e4, e5⟩ := idx_facts3 t
  funext j
  show k3_pay1 (iblk3 V c 0 t) (iblk3 V c 1 t) ((cfg3.win 2).xinj (grid3.coords t) j)
    = Cert.Spec.mm (V c main_v54) (V c main_arg6) (((cfg3.win 2).blk t).view.emb j)
  refine block3_apply _ _ _ _ t.val (fun y i h0 h1 => iblk3_0_apply V c t y i h0 h1) (fun y => iblk3_1_apply V c t y) _ _ ?_ ?_
  · show win3_2.index t (0 : Fin 2) * 5000 + 1 * (j 0).val = t.val * 5000 + (j 0).val; rw [e4]; omega
  · show win3_2.index t (1 : Fin 2) * 64 + 1 * (j 1).val = (j 1).val; rw [e5]; omega

theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v55).slice (win3_2.rect t)).set ↔ _
  rw [View.set_slice_whole, Rect.mem_set_unit]
  exact Iff.rfl

theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

theorem arr3 (c : Dev nD) :
    (dat3 (F := Ideal) V c).arrAt 2 cfg3.N = Cert.Spec.mm (V c main_v54) (V c main_arg6) :=
  (dat3 (F := Ideal) V c).arrAt_eq_of_cover 2 (Cert.Spec.mm (V c main_v54) (V c main_arg6)) (fun t _ => flushed3_eq V c t) cover3

end Cert.KernelIdeal.Val

end
-- ==== Proof.ValR4.lean ====
import proofs.«165428_j46729244180997_1_alg».proof.Proof.KernelIdeal.FrameR4
import proofs.«165428_j46729244180997_1_alg».proof.Proof.ValR1
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem iblk4_0_apply (c : Dev nD) (t : Fin cfg4.N) (p : Fin 8192) (q : Fin 64) (k : Fin 3252224) (hk : k.val = t.val * 8192 + p.val) :
    (iblk4 V c 0 t : Vec Ideal S8192x64 .f32) (ix2 p q) = (V c main_v62 : FVec Ideal ⟨2, ![3252224, 64]⟩ .f32) (ix2 k q) := by
  obtain ⟨e0, e1, -⟩ := idx_facts4 t
  unfold iblk4
  rw [View.read_apply]
  show V c main_v62 _ = V c main_v62 _
  congr 1
  funext a; apply Fin.ext
  match a with
  | ⟨0, _⟩ => show win4_0.index t 0 * 8192 + 1 * p.val = k.val; rw [e0, hk]; omega
  | ⟨1, _⟩ => show win4_0.index t 1 * 64 + 1 * q.val = q.val; rw [e1]; omega

theorem iblk4_1_apply (c : Dev nD) (t : Fin cfg4.N) (p : Fin 8192) (q : Fin 3) (k : Fin 3252224) (hk : k.val = t.val * 8192 + p.val) :
    (iblk4 V c 1 t : Vec Ideal S8192x3 .f32) (ix2 p q) = (V c main_v40 : FVec Ideal ⟨2, ![3252224, 3]⟩ .f32) (ix2 k q) := by
  obtain ⟨-, -, e2, e3, -⟩ := idx_facts4 t
  unfold iblk4
  rw [View.read_apply]
  show V c main_v40 _ = V c main_v40 _
  congr 1
  funext a; apply Fin.ext
  match a with
  | ⟨0, _⟩ => show win4_1.index t 0 * 8192 + 1 * p.val = k.val; rw [e2, hk]; omega
  | ⟨1, _⟩ => show win4_1.index t 1 * 3 + 1 * q.val = q.val; rw [e3]; omega

theorem flushed4_eq (c : Dev nD) (t : Fin cfg4.N) :
    (dat4 V c).flushed 2 t = ((cfg4.win 2).blk t).view.read (Elt Ideal) (Cert.Spec.scaleRows (V c main_v62) (V c main_v40)) := by
  show (cfg4.win 2).cut (grid4.coords t) ((dat4 V c).after 2 t) = _
  rw [after4_2]
  unfold out1_2
  rw [View.canon_unit_zero Cert.Spec.hz]
  simp only [View.ld_unit_zero (S := S8192x64) Cert.Spec.hz, View.ld_unit_zero (S := S8192x3) Cert.Spec.hz]
  obtain ⟨-, -, -, -, e4, e5⟩ := idx_facts4 t
  funext j
  obtain ⟨p, q, rfl⟩ : ∃ (p : Fin 8192) (q : Fin 64), j = ix2 p q := ⟨j 0, j 1, eq_ix2 j⟩
  show k1_pay1 (iblk4 V c 1 t) (iblk4 V c 0 t) (ix2 p q) = Cert.Spec.scaleRows (V c main_v62) (V c main_v40) (((cfg4.win 2).blk t).view.emb (ix2 p q))
  have hN : cfg4.N = 397 := N_4
  have hk : t.val * 8192 + p.val < 3252224 := by have := t.isLt; omega
  have hemb : ((cfg4.win 2).blk t).view.emb (ix2 p q) = ix2 (⟨t.val * 8192 + p.val, hk⟩ : Fin 3252224) q := by
    funext a; apply Fin.ext
    match a with
    | ⟨0, _⟩ => show win4_2.index t 0 * 8192 + 1 * p.val = t.val * 8192 + p.val; rw [e4]; omega
    | ⟨1, _⟩ => show win4_2.index t 1 * 64 + 1 * q.val = q.val; rw [e5]; omega
  rw [hemb]
  exact scale_block1 _ _ _ _ t.val (fun p q k hk => iblk4_0_apply V c t p q k hk) (fun p q k hk => iblk4_1_apply V c t p q k hk) p q _ rfl

theorem mem_blk4 (t : Fin cfg4.N) (i : S3252224x64.Idx) :
    i ∈ ((cfg4.win 2).blk t).view.set ↔ ∀ a : Fin 2, win4_2.index t a * S8192x64.size a ≤ (i a).val ∧ (i a).val < win4_2.index t a * S8192x64.size a + S8192x64.size a := by
  show i ∈ ((View.whole main_v63).slice (win4_2.rect t)).set ↔ _
  rw [View.set_slice_whole, Rect.mem_set_unit]
  exact Iff.rfl

theorem cover4 (i : S3252224x64.Idx) : ∃ t : Fin cfg4.N, (cfg4.win 2).flush t = true ∧ i ∈ ((cfg4.win 2).blk t).view.set := by
  have hi0 : (i 0).val < 3252224 := (i 0).isLt
  have hi1 : (i 1).val < 64 := (i 1).isLt
  have hN : cfg4.N = 397 := N_4
  have ht : (i 0).val / 8192 < cfg4.N := by rw [hN]; omega
  obtain ⟨-, -, -, -, e4, e5⟩ := idx_facts4 ⟨(i 0).val / 8192, ht⟩
  refine ⟨⟨(i 0).val / 8192, ht⟩, flush4_2 _, ?_⟩
  rw [mem_blk4]
  intro a
  match a with
  | ⟨0, _⟩ =>
    show win4_2.index ⟨(i 0).val / 8192, ht⟩ 0 * 8192 ≤ (i 0).val ∧ (i 0).val < win4_2.index ⟨(i 0).val / 8192, ht⟩ 0 * 8192 + 8192
    rw [e4]; show (i 0).val / 8192 * 8192 ≤ (i 0).val ∧ (i 0).val < (i 0).val / 8192 * 8192 + 8192; omega
  | ⟨1, _⟩ =>
    show win4_2.index ⟨(i 0).val / 8192, ht⟩ 1 * 64 ≤ (i 1).val ∧ (i 1).val < win4_2.index ⟨(i 0).val / 8192, ht⟩ 1 * 64 + 64
    rw [e5]; omega

theorem arr4 (c : Dev nD) :
    (dat4 (F := Ideal) V c).arrAt 2 cfg4.N = Cert.Spec.scaleRows (V c main_v62) (V c main_v40) :=
  (dat4 V c).arrAt_eq_of_cover 2 _ (fun t _ => flushed4_eq V c t) cover4

end Cert.KernelIdeal.Val

end
-- ==== Proof.ValR5.lean ====
import proofs.«165428_j46729244180997_1_alg».proof.Proof.KernelIdeal.FrameR5
import proofs.«165428_j46729244180997_1_alg».proof.Proof.ValR2
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem iblk5_0_apply (c : Dev nD) (t : Fin cfg5.N) (p : Fin 5000) (q : Fin 64) (k : Fin 50000) (hk : k.val = t.val * 5000 + p.val) :
    (iblk5 V c 0 t : Vec Ideal S5000x64 .f32) (ix2 p q) = (V c main_v66 : FVec Ideal ⟨2, ![50000, 64]⟩ .f32) (ix2 k q) := by
  obtain ⟨e0, e1, -⟩ := idx_facts5 t
  unfold iblk5
  rw [View.read_apply]
  show V c main_v66 _ = V c main_v66 _
  congr 1
  funext a; apply Fin.ext
  match a with
  | ⟨0, _⟩ => show win5_0.index t 0 * 5000 + 1 * p.val = k.val; rw [e0, hk]; omega
  | ⟨1, _⟩ => show win5_0.index t 1 * 64 + 1 * q.val = q.val; rw [e1]; omega

theorem iblk5_1_apply (c : Dev nD) (t : Fin cfg5.N) (q : Fin 64) :
    (iblk5 V c 1 t : Vec Ideal S1x64 .f32) (ix2 0 q) = (V c main_v67 : FVec Ideal ⟨2, ![1, 64]⟩ .f32) (ix2 0 q) := by
  obtain ⟨-, -, e2, e3, -⟩ := idx_facts5 t
  unfold iblk5
  rw [View.read_apply]
  show V c main_v67 _ = V c main_v67 _
  congr 1
  funext a; apply Fin.ext
  match a with
  | ⟨0, _⟩ => show win5_1.index t 0 * 1 + 1 * (0 : Fin 1).val = (0 : Fin 1).val; rw [e2]; rfl
  | ⟨1, _⟩ => show win5_1.index t 1 * 64 + 1 * q.val = q.val; rw [e3]; omega

theorem flushed5_eq (c : Dev nD) (t : Fin cfg5.N) :
    (dat5 V c).flushed 2 t = ((cfg5.win 2).blk t).view.read (Elt Ideal) (Cert.Spec.biasRelu (V c main_v66) (V c main_v67)) := by
  show (cfg5.win 2).cut (grid5.coords t) ((dat5 V c).after 2 t) = _
  rw [after5_2]
  unfold out2_2
  rw [View.canon_unit_zero Cert.Spec.hz]
  simp only [View.ld_unit_zero (S := S5000x64) Cert.Spec.hz, View.ld_unit_zero (S := S1x64) Cert.Spec.hz]
  obtain ⟨-, -, -, -, e4, e5⟩ := idx_facts5 t
  funext j
  obtain ⟨p, q, rfl⟩ : ∃ (p : Fin 5000) (q : Fin 64), j = ix2 p q := ⟨j 0, j 1, eq_ix2 j⟩
  show k2_pay1 (iblk5 V c 0 t) (iblk5 V c 1 t) (ix2 p q) = Cert.Spec.biasRelu (V c main_v66) (V c main_v67) (((cfg5.win 2).blk t).view.emb (ix2 p q))
  have hN : cfg5.N = 10 := N_5
  have hk : t.val * 5000 + p.val < 50000 := by have := t.isLt; omega
  have hemb : ((cfg5.win 2).blk t).view.emb (ix2 p q) = ix2 (⟨t.val * 5000 + p.val, hk⟩ : Fin 50000) q := by
    funext a; apply Fin.ext
    match a with
    | ⟨0, _⟩ => show win5_2.index t 0 * 5000 + 1 * p.val = t.val * 5000 + p.val; rw [e4]; omega
    | ⟨1, _⟩ => show win5_2.index t 1 * 64 + 1 * q.val = q.val; rw [e5]; omega
  rw [hemb]
  exact bias_block2 _ _ _ _ t.val (fun p q k hk => iblk5_0_apply V c t p q k hk) (fun q => iblk5_1_apply V c t q) p q _ rfl

theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v68).slice (win5_2.rect t)).set ↔ _
  rw [View.set_slice_whole, Rect.mem_set_unit]
  exact Iff.rfl

theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨-, -, -, -, e4, e5⟩ := idx_facts5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ 0 * 5000 ≤ (i 0).val ∧ (i 0).val < win5_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ 1 * 64 ≤ (i 1).val ∧ (i 1).val < win5_2.index ⟨(i 0).val / 5000, ht⟩ 1 * 64 + 64
    rw [e5]; omega

theorem arr5 (c : Dev nD) :
    (dat5 (F := Ideal) V c).arrAt 2 cfg5.N = Cert.Spec.biasRelu (V c main_v66) (V c main_v67) :=
  (dat5 V c).arrAt_eq_of_cover 2 _ (fun t _ => flushed5_eq V c t) cover5

end Cert.KernelIdeal.Val

end
-- ==== Proof.ValR6.lean ====
import proofs.«165428_j46729244180997_1_alg».proof.Proof.KernelIdeal.FrameR6
import proofs.«165428_j46729244180997_1_alg».proof.Proof.Spec
import proofs.«165428_j46729244180997_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem pay6_apply (x0 : Vec Ideal S50x64 .f32) (x1 : Vec Ideal S64x2 .f32) (x2 : Vec Ideal S1x2 .f32) (p : Fin 50) (q : Fin 2) :
    k6_pay1 x0 x1 x2 (ix2 p q) = (∑ k : Fin 64, x0 (ix2 p k) * x1 (ix2 k q)) + x2 (ix2 (0 : Fin 1) q) := by
  unfold k6_pay1
  simp only [shapeCast_self]
  rw [addf_apply, broadcastTo_1b_ab_apply]
  exact congrArg (· + x2 (ix2 (0 : Fin 1) q))
    (Cert.LibDense.matmul_zero_apply dot_S50x64_S64x2_S50x2_1_0_0_1_n_n none rfl rfl rfl rfl rfl rfl _ _ p q)

theorem block6_apply (P : FVec Ideal S50x64 .f32) (W : FVec Ideal S64x2 .f32) (B : FVec Ideal S1x2 .f32)
    (x0 : Vec Ideal S50x64 .f32) (x1 : Vec Ideal S64x2 .f32) (x2 : Vec Ideal S1x2 .f32)
    (h0 : ∀ y : S50x64.Idx, x0 y = P y) (h1 : ∀ y : S64x2.Idx, x1 y = W y) (h2 : ∀ y : S1x2.Idx, x2 y = B y)
    (y : S50x2.Idx) (i : S50x2.Idx) (hi0 : (i 0).val = (y 0).val) (hi1 : (i 1).val = (y 1).val) :
    k6_pay1 x0 x1 x2 y = Cert.Spec.affine P W B i := by
  obtain ⟨p, q, rfl⟩ : ∃ (p : Fin 50) (q : Fin 2), y = ix2 p q := ⟨y 0, y 1, eq_ix2 y⟩
  obtain ⟨r, s, rfl⟩ : ∃ (r : Fin 50) (s : Fin 2), i = ix2 r s := ⟨i 0, i 1, eq_ix2 i⟩
  obtain rfl : r = p := Fin.ext hi0
  obtain rfl : s = q := Fin.ext hi1
  rw [pay6_apply, Cert.Spec.affine_apply, h2]
  refine congrArg (· + B (ix2 (0 : Fin 1) s)) (Finset.sum_congr rfl fun k _ => ?_)
  rw [h0, h1]

theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

variable (V : (c : Dev nD) → (b : Ref sig .tc) → Buf (Elt Ideal) ((c : Thread nD τ).loc b))

theorem iblk6_0_apply (c : Dev nD) (t : Fin cfg6.N) (y : S50x64.Idx) :
    (iblk6 V c 0 t : Vec Ideal S50x64 .f32) y = (V c main_v80 : FVec Ideal S50x64 .f32) y := by
  obtain ⟨e0, e1, -⟩ := idx_facts6 t
  unfold iblk6
  rw [View.read_apply]
  show V c main_v80 _ = V c main_v80 _
  congr 1
  funext a
  apply Fin.ext
  match a with
  | ⟨0, _⟩ => show win6_0.index t (0 : Fin 2) * 50 + 1 * (y 0).val = (y 0).val; rw [e0]; omega
  | ⟨1, _⟩ => show win6_0.index t (1 : Fin 2) * 64 + 1 * (y 1).val = (y 1).val; rw [e1]; omega

theorem iblk6_1_apply (c : Dev nD) (t : Fin cfg6.N) (y : S64x2.Idx) :
    (iblk6 V c 1 t : Vec Ideal S64x2 .f32) y = (V c main_arg8 : FVec Ideal S64x2 .f32) y := by
  obtain ⟨-, -, e2, e3, -⟩ := idx_facts6 t
  unfold iblk6
  rw [View.read_apply]
  show V c main_arg8 _ = V c main_arg8 _
  congr 1
  funext a
  apply Fin.ext
  match a with
  | ⟨0, _⟩ => show win6_1.index t (0 : Fin 2) * 64 + 1 * (y 0).val = (y 0).val; rw [e2]; omega
  | ⟨1, _⟩ => show win6_1.index t (1 : Fin 2) * 2 + 1 * (y 1).val = (y 1).val; rw [e3]; omega

theorem iblk6_2_apply (c : Dev nD) (t : Fin cfg6.N) (y : S1x2.Idx) :
    (iblk6 V c 2 t : Vec Ideal S1x2 .f32) y = (V c main_v81 : FVec Ideal S1x2 .f32) y := by
  obtain ⟨-, -, -, -, e4, e5, -⟩ := idx_facts6 t
  unfold iblk6
  rw [View.read_apply]
  show V c main_v81 _ = V c main_v81 _
  congr 1
  funext a
  apply Fin.ext
  match a with
  | ⟨0, _⟩ => show win6_2.index t (0 : Fin 2) * 1 + 1 * (y 0).val = (y 0).val; rw [e4]; omega
  | ⟨1, _⟩ => show win6_2.index t (1 : Fin 2) * 2 + 1 * (y 1).val = (y 1).val; rw [e5]; omega

theorem flushed6_eq (c : Dev nD) (t : Fin cfg6.N) :
    (dat6 (F := Ideal) V c).flushed 3 t
      = ((cfg6.win 3).blk t).view.read (Elt Ideal) (Cert.Spec.affine (V c main_v80) (V c main_arg8) (V c main_v81)) := by
  show (cfg6.win 3).cut (grid6.coords t) ((dat6 V c).after 3 t) = _
  rw [after6_3]
  unfold out6_3
  rw [View.canon_unit_zero Cert.Spec.hz]
  simp only [View.ld_unit_zero (S := S50x64) Cert.Spec.hz, View.ld_unit_zero (S := S64x2) Cert.Spec.hz, View.ld_unit_zero (S := S1x2) Cert.Spec.hz]
  obtain ⟨-, -, -, -, -, -, e6, e7⟩ := idx_facts6 t
  funext j
  show k6_pay1 (iblk6 V c 0 t) (iblk6 V c 1 t) (iblk6 V c 2 t) ((cfg6.win 3).xinj (grid6.coords t) j)
    = Cert.Spec.affine (V c main_v80) (V c main_arg8) (V c main_v81) (((cfg6.win 3).blk t).view.emb j)
  refine block6_apply _ _ _ _ _ _ (fun y => iblk6_0_apply V c t y) (fun y => iblk6_1_apply V c t y) (fun y => iblk6_2_apply V c t y) _ _ ?_ ?_
  · show win6_3.index t (0 : Fin 2) * 50 + 1 * (j 0).val = (j 0).val; rw [e6]; omega
  · show win6_3.index t (1 : Fin 2) * 2 + 1 * (j 1).val = (j 1).val; rw [e7]; omega

theorem mem_blk6 (t : Fin cfg6.N) (i : S50x2.Idx) :
    i ∈ ((cfg6.win 3).blk t).view.set ↔ ∀ a : Fin 2, win6_3.index t a * S50x2.size a ≤ (i a).val ∧ (i a).val < win6_3.index t a * S50x2.size a + S50x2.size a := by
  show i ∈ ((View.whole main_v82).slice (win6_3.rect t)).set ↔ _
  rw [View.set_slice_whole, Rect.mem_set_unit]
  exact Iff.rfl

theorem cover6 (i : S50x2.Idx) : ∃ t : Fin cfg6.N, (cfg6.win 3).flush t = true ∧ i ∈ ((cfg6.win 3).blk t).view.set := by
  have hi0 : (i 0).val < 50 := (i 0).isLt
  have hi1 : (i 1).val < 2 := (i 1).isLt
  obtain ⟨-, -, -, -, -, -, e6, e7⟩ := idx_facts6 t6_0
  refine ⟨t6_0, flush6_3 t6_0, ?_⟩
  rw [mem_blk6]
  intro a
  match a with
  | ⟨0, _⟩ => show win6_3.index t6_0 (0 : Fin 2) * 50 ≤ (i 0).val ∧ (i 0).val < win6_3.index t6_0 (0 : Fin 2) * 50 + 50; rw [e6]; omega
  | ⟨1, _⟩ => show win6_3.index t6_0 (1 : Fin 2) * 2 ≤ (i 1).val ∧ (i 1).val < win6_3.index t6_0 (1 : Fin 2) * 2 + 2; rw [e7]; omega

theorem arr6 (c : Dev nD) :
    (dat6 (F := Ideal) V c).arrAt 3 cfg6.N = Cert.Spec.affine (V c main_v80) (V c main_arg8) (V c main_v81) :=
  (dat6 (F := Ideal) V c).arrAt_eq_of_cover 3 (Cert.Spec.affine (V c main_v80) (V c main_arg8) (V c main_v81))
    (fun t _ => flushed6_eq V c t) cover6

end Cert.KernelIdeal.Val

end
-- ==== Proof.KChain3.lean ====
import proofs.«165428_j46729244180997_1_alg».proof.Proof.KChain2
import proofs.«165428_j46729244180997_1_alg».proof.Proof.ValR3
import proofs.«165428_j46729244180997_1_alg».proof.Proof.ValR4
import proofs.«165428_j46729244180997_1_alg».proof.Proof.ValR5
import proofs.«165428_j46729244180997_1_alg».proof.Proof.ValR6
import proofs.«165428_j46729244180997_1_alg».proof.Proof.KDefs
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe

variable (m : (ℓ : Loc nD τ sig) → Buf (Elt Ideal) ℓ) (ρ : Dev nD → PrngReg) (c : Dev nD)

local notation "𝕍" => Valuation τ sig (Elt Ideal)

theorem W16_arg6 : W16 (F := Ideal) m ρ c (Proc.devRef .tc main_arg6) = m ((c.tc : Thread nD τ).loc main_arg6) :=
  W16_launch m ρ c (by decide) (by decide)
theorem W19_arg7 : W19 (F := Ideal) m ρ c (Proc.devRef .tc main_arg7) = m ((c.tc : Thread nD τ).loc main_arg7) :=
  W19_launch m ρ c (by decide) (by decide)
theorem W21_arg3 : W21 (F := Ideal) m ρ c (Proc.devRef .tc main_arg3) = m ((c.tc : Thread nD τ).loc main_arg3) :=
  W21_launch m ρ c (by decide) (by decide)
theorem W21_arg9 : W21 (F := Ideal) m ρ c (Proc.devRef .tc main_arg9) = m ((c.tc : Thread nD τ).loc main_arg9) :=
  W21_launch m ρ c (by decide) (by decide)
theorem W22_arg8 : W22 (F := Ideal) m ρ c (Proc.devRef .tc main_arg8) = m ((c.tc : Thread nD τ).loc main_arg8) :=
  W22_launch m ρ c (by decide) (by decide)

theorem W17_v55 : (W17 (F := Ideal) m ρ c (Proc.devRef .tc main_v55) : (⟨S50000x64, .f32⟩ : BufTy).Contents (Elt Ideal)) = Cert.Spec.mm (layer (a1 m c) (a2 m c) (Cert.Spec.mm (m ((c.tc : Thread nD τ).loc main_arg0)) (m ((c.tc : Thread nD τ).loc main_arg4))) (m ((c.tc : Thread nD τ).loc main_arg5))) (m ((c.tc : Thread nD τ).loc main_arg6)) := by
  refine (W17_arr m ρ c 2).trans ?_
  rw [arr3 (VE3 m ρ) c]
  show Cert.Spec.mm (W16 (F := Ideal) m ρ c (Proc.devRef .tc main_v54)) (W16 (F := Ideal) m ρ c (Proc.devRef .tc main_arg6)) = _
  rw [W16_v54 m ρ c, W16_arg6 m ρ c]

theorem s4_v62 (V : 𝕍) : (StableHlo.after hostOps4 V (Proc.devRef .tc main_v62) : (⟨S3252224x64, .f32⟩ : BufTy).Contents (Elt Ideal))
    = Host.gather gather_S50000x64_S3252224x1_S3252224x64_1_0_n_n_0_1_164 (V (Proc.devRef .tc main_v55) : (⟨S50000x64, .f32⟩ : BufTy).Contents (Elt Ideal))
        (wrapCol (V (Proc.devRef .tc main_v10) : (⟨S3252224, .i32⟩ : BufTy).Contents (Elt Ideal))) := by
  after_results; rfl

theorem W17_v10 : (W17 (F := Ideal) m ρ c (Proc.devRef .tc main_v10) : (⟨S3252224, .i32⟩ : BufTy).Contents (Elt Ideal)) = srcP (a1 m c) :=
  (W17_of_ne m ρ c main_v10 (by decide)).trans (W16_v10 m ρ c)

theorem W18_v62 : (W18 (F := Ideal) m ρ c (Proc.devRef .tc main_v62) : (⟨S3252224x64, .f32⟩ : BufTy).Contents (Elt Ideal)) = rowsOf (a1 m c) (Cert.Spec.mm (layer (a1 m c) (a2 m c) (Cert.Spec.mm (m ((c.tc : Thread nD τ).loc main_arg0)) (m ((c.tc : Thread nD τ).loc main_arg4))) (m ((c.tc : Thread nD τ).loc main_arg5))) (m ((c.tc : Thread nD τ).loc main_arg6))) := by
  refine (s4_v62 (W17 m ρ c)).trans ?_
  unfold rowsOf
  rw [W17_v55 m ρ c, W17_v10 m ρ c]

theorem W18_v40 : (W18 (F := Ideal) m ρ c (Proc.devRef .tc main_v40) : (⟨S3252224x3, .f32⟩ : BufTy).Contents (Elt Ideal)) = scal (a1 m c) (a2 m c) :=
  (W18_of m ρ c main_v40 (by decide)).trans <| (W17_of_ne m ρ c main_v40 (by decide)).trans <| W16_v40 m ρ c

theorem W19_v63 : (W19 (F := Ideal) m ρ c (Proc.devRef .tc main_v63) : (⟨S3252224x64, .f32⟩ : BufTy).Contents (Elt Ideal))
    = Cert.Spec.scaleRows (rowsOf (a1 m c) (Cert.Spec.mm (layer (a1 m c) (a2 m c) (Cert.Spec.mm (m ((c.tc : Thread nD τ).loc main_arg0)) (m ((c.tc : Thread nD τ).loc main_arg4))) (m ((c.tc : Thread nD τ).loc main_arg5))) (m ((c.tc : Thread nD τ).loc main_arg6)))) (scal (a1 m c) (a2 m c)) := by
  refine (W19_arr m ρ c 2).trans ?_
  rw [arr4 (VE4 m ρ) c]
  show Cert.Spec.scaleRows (W18 (F := Ideal) m ρ c (Proc.devRef .tc main_v62)) (W18 (F := Ideal) m ρ c (Proc.devRef .tc main_v40)) = _
  rw [W18_v62 m ρ c, W18_v40 m ρ c]

theorem s5_v66 (V : 𝕍) : (StableHlo.after hostOps5 V (Proc.devRef .tc main_v66) : (⟨S50000x64, .f32⟩ : BufTy).Contents (Elt Ideal))
    = Host.scatterAdd scatter_S50000x64_S3252224x1_S3252224x64_1_0_0_1
        (broadcastInDim S50000x64 ![] bcast_S_S50000x64 (constant (F := Ideal) S_ .f32 0x00000000#32))
        (col (V (Proc.devRef .tc main_v11) : (⟨S3252224, .i32⟩ : BufTy).Contents (Elt Ideal))) (V (Proc.devRef .tc main_v63) : (⟨S3252224x64, .f32⟩ : BufTy).Contents (Elt Ideal)) := by
  after_results; rfl

theorem s5_v67 (V : 𝕍) : (StableHlo.after hostOps5 V (Proc.devRef .tc main_v67) : (⟨S1x64, .f32⟩ : BufTy).Contents (Elt Ideal))
    = shapeCast _ (V (Proc.devRef .tc main_arg7) : (⟨S64, .f32⟩ : BufTy).Contents (Elt Ideal)) shapeCasts_S64_S1x64 := by
  after_results; rfl

theorem W19_v11 : (W19 (F := Ideal) m ρ c (Proc.devRef .tc main_v11) : (⟨S3252224, .i32⟩ : BufTy).Contents (Elt Ideal)) = dstP (a1 m c) :=
  (W19_of_ne m ρ c main_v11 (by decide)).trans <| (W18_of m ρ c main_v11 (by decide)).trans <|
    (W17_of_ne m ρ c main_v11 (by decide)).trans <| W16_v11 m ρ c

theorem W20_v66 : (W20 (F := Ideal) m ρ c (Proc.devRef .tc main_v66) : (⟨S50000x64, .f32⟩ : BufTy).Contents (Elt Ideal)) = agg (a1 m c) (a2 m c) (Cert.Spec.mm (layer (a1 m c) (a2 m c) (Cert.Spec.mm (m ((c.tc : Thread nD τ).loc main_arg0)) (m ((c.tc : Thread nD τ).loc main_arg4))) (m ((c.tc : Thread nD τ).loc main_arg5))) (m ((c.tc : Thread nD τ).loc main_arg6))) := by
  refine (s5_v66 (W19 m ρ c)).trans ?_
  unfold agg
  rw [W19_v11 m ρ c, W19_v63 m ρ c]

theorem W20_v67 : (W20 (F := Ideal) m ρ c (Proc.devRef .tc main_v67) : (⟨S1x64, .f32⟩ : BufTy).Contents (Elt Ideal)) = shapeCast _ (m ((c.tc : Thread nD τ).loc main_arg7)) shapeCasts_S64_S1x64 := by
  refine (s5_v67 (W19 m ρ c)).trans ?_
  rw [W19_arg7 m ρ c]

theorem W21_v68 : (W21 (F := Ideal) m ρ c (Proc.devRef .tc main_v68) : (⟨S50000x64, .f32⟩ : BufTy).Contents (Elt Ideal)) = layer (a1 m c) (a2 m c) (Cert.Spec.mm (layer (a1 m c) (a2 m c) (Cert.Spec.mm (m ((c.tc : Thread nD τ).loc main_arg0)) (m ((c.tc : Thread nD τ).loc main_arg4))) (m ((c.tc : Thread nD τ).loc main_arg5))) (m ((c.tc : Thread nD τ).loc main_arg6))) (m ((c.tc : Thread nD τ).loc main_arg7)) := by
  refine (W21_arr m ρ c 2).trans ?_
  rw [arr5 (VE5 m ρ) c]
  show Cert.Spec.biasRelu (W20 (F := Ideal) m ρ c (Proc.devRef .tc main_v66)) (W20 (F := Ideal) m ρ c (Proc.devRef .tc main_v67)) = _
  rw [W20_v66 m ρ c, W20_v67 m ρ c]
  rfl

theorem s6_v80 (V : 𝕍) : (StableHlo.after hostOps6 V (Proc.devRef .tc main_v80) : (⟨S50x64, .f32⟩ : BufTy).Contents (Elt Ideal))
    = pool (V (Proc.devRef .tc main_arg3) : (⟨S50000, .i32⟩ : BufTy).Contents (Elt Ideal)) (V (Proc.devRef .tc main_v68) : (⟨S50000x64, .f32⟩ : BufTy).Contents (Elt Ideal)) := by
  after_results_simp; rfl

theorem s6_v81 (V : 𝕍) : (StableHlo.after hostOps6 V (Proc.devRef .tc main_v81) : (⟨S1x2, .f32⟩ : BufTy).Contents (Elt Ideal))
    = shapeCast _ (V (Proc.devRef .tc main_arg9) : (⟨S2, .f32⟩ : BufTy).Contents (Elt Ideal)) shapeCasts_S2_S1x2 := by
  after_results_simp; rfl

theorem W22_v80 : (W22 (F := Ideal) m ρ c (Proc.devRef .tc main_v80) : (⟨S50x64, .f32⟩ : BufTy).Contents (Elt Ideal)) = pool (m ((c.tc : Thread nD τ).loc main_arg3)) (layer (a1 m c) (a2 m c) (Cert.Spec.mm (layer (a1 m c) (a2 m c) (Cert.Spec.mm (m ((c.tc : Thread nD τ).loc main_arg0)) (m ((c.tc : Thread nD τ).loc main_arg4))) (m ((c.tc : Thread nD τ).loc main_arg5))) (m ((c.tc : Thread nD τ).loc main_arg6))) (m ((c.tc : Thread nD τ).loc main_arg7))) := by
  refine (s6_v80 (W21 m ρ c)).trans ?_
  rw [W21_arg3 m ρ c, W21_v68 m ρ c]

theorem W22_v81 : (W22 (F := Ideal) m ρ c (Proc.devRef .tc main_v81) : (⟨S1x2, .f32⟩ : BufTy).Contents (Elt Ideal)) = shapeCast _ (m ((c.tc : Thread nD τ).loc main_arg9)) shapeCasts_S2_S1x2 := by
  refine (s6_v81 (W21 m ρ c)).trans ?_
  rw [W21_arg9 m ρ c]

theorem result_eq : (Cert.KernelIdeal.Hand.W23 (F := Ideal) m ρ c (Proc.devRef .tc main_v82) : (⟨S50x2, .f32⟩ : BufTy).Contents (Elt Ideal))
    = result (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W23_arr m ρ c 3).trans ?_
  rw [arr6 (VE6 m ρ) c]
  show Cert.Spec.affine (W22 (F := Ideal) m ρ c (Proc.devRef .tc main_v80)) (W22 (F := Ideal) m ρ c (Proc.devRef .tc main_arg8)) (W22 (F := Ideal) m ρ c (Proc.devRef .tc main_v81)) = _
  rw [W22_v80 m ρ c, W22_arg8 m ρ c, W22_v81 m ρ c]
  rfl

end Cert.KernelIdeal.Val

end
-- ==== Proof.LibRows.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

def rowOf {N n w : ℕ} (hN : 0 < N) (idx : IVec ⟨2, ![n, 1]⟩ w) (p : Fin n) : Fin N :=
  ⟨min (idx (ixP p)).toInt.toNat (N - 1), by omega⟩

theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil

  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>

    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>

    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by

  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]

  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]

  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

end Cert.LibRows

end
-- ==== Proof.LibRows1.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows1

open Idealize.ShloMosaic Idealize.ShloMosaic.ValueIdx Idealize.ShloMosaic.StableHlo.Predicate

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

theorem scatter_vec_resultIdx {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (r : Fin N) :
    d.resultIdx? (ix1 e) idx = some (ix1 r) ↔ (idx (ixP e)).toInt = (r.val : ℤ) := by

  have e0 : ∀ X : Fin 1, ((ix1 e : (⟨1, ![n]⟩ : Shape).Idx) X).val = e.val := fun X => by
    match X with | ⟨0, _⟩ => rfl

  have hs0 : d.start (ix1 e) idx 0 = (idx (ixP e)).toInt := by
    have hm : (0 : Fin 1) ∈ d.scatterDimsToOperandDims := by rw [hsd]; exact List.mem_singleton.mpr rfl
    unfold ScatterDims.start
    rw [dif_pos hm]
    congr 2
    funext b
    apply Fin.ext
    match b with
    | ⟨0, _⟩ =>

      unfold ScatterDims.siIdx
      rw [dif_neg (by rw [hivd]; exact Nat.zero_ne_one)]
      unfold ScatterDims.siCoord
      simp only [Fin.val_cast]
      exact e0 _
    | ⟨1, _⟩ =>

      unfold ScatterDims.siIdx
      rw [dif_pos (by rw [hivd])]
      show List.idxOf (0 : Fin 1) d.scatterDimsToOperandDims = 0
      rw [hsd]; simp

  have hw0 : d.window (ix1 e) 0 = 0 := by
    have hk : (0 : Fin 1) ∉ d.sKept := by
      simp [ScatterDims.sKept, Shape.kept, List.mem_filter, List.mem_finRange, hiw]
    unfold ScatterDims.window
    rw [dif_neg hk]
  have hr := r.isLt
  unfold ScatterDims.resultIdx?
  constructor
  · intro h
    split at h
    · next hin =>
      have hf := Option.some.inj h
      have h0 := congrArg (fun f => (f 0).val) hf
      simp only [hs0, hw0] at h0
      have hin0 := (hin 0).1
      rw [hs0, hw0] at hin0
      change ((idx (ixP e)).toInt + ((0 : ℕ) : ℤ)).toNat = r.val at h0
      omega
    · exact absurd h (by simp)
  · intro hi
    have hin : ∀ a, 0 ≤ d.start (ix1 e) idx a + d.window (ix1 e) a ∧
        d.start (ix1 e) idx a + (d.window (ix1 e) a : ℤ) < ((⟨1, ![N]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw0, hi]; omega
    rw [dif_pos hin]
    congr 1
    funext a
    apply Fin.ext
    match a with
    | ⟨0, _⟩ =>
      show (d.start (ix1 e) idx 0 + (d.window (ix1 e) 0 : ℤ)).toNat = r.val
      rw [hs0, hw0, hi]; omega

theorem scatterAdd_vec {φ : FTy} {N n w : ℕ} (d : ScatterDims ⟨1, ![N]⟩ ⟨2, ![n, 1]⟩ ⟨1, ![n]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd d x idx upd (ix1 r) = x (ix1 r) + ∑ e ∈ Finset.univ.filter (fun e : Fin n => (idx (ixP e)).toInt = (r.val : ℤ)), upd (ix1 e) := by
  show x (ix1 r) + ∑ j ∈ Finset.univ.filter (fun j => d.resultIdx? j idx = some (ix1 r)), upd j = _
  congr 1
  rw [Finset.sum_filter, sum_idx1, Finset.sum_filter]
  refine Finset.sum_congr rfl fun a _ => ?_
  simp only [scatter_vec_resultIdx d huw hiw hsd hivd]

end Cert.LibRows1

end
-- ==== Proof.KEdge.lean ====
import proofs.«165428_j46729244180997_1_alg».proof.Proof.KDefs
import proofs.«165428_j46729244180997_1_alg».proof.Proof.LibRows
import proofs.«165428_j46729244180997_1_alg».proof.Proof.LibRows1
import proofs.«165428_j46729244180997_1_alg».proof.Proof.Spec
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Val

open Cert.KernelIdeal Idealize.ShloMosaic Idealize.ShloMosaic.ValueIdx Idealize.ShloMosaic.StableHlo.Predicate

variable [Cert.KernelIdeal.Facts]
open Cert.KernelIdeal.Facts₀ Cert.KernelIdeal.Facts

variable (x1 : (⟨S2x3200000, .i32⟩ : BufTy).Contents (Elt Ideal)) (x2 : (⟨S3200000x1, .f32⟩ : BufTy).Contents (Elt Ideal))

def srcW (e : Fin 3252224) : BitVec 32 := srcP x1 (ix1 e)

def dstW (e : Fin 3252224) : BitVec 32 := dstP x1 (ix1 e)

def ewW (e : Fin 3252224) : EReal := ewP x2 (ix1 e)

theorem ofFin_eq_ix1 {n : ℕ} (e : Fin n) : (Shape.Idx.ofFin e : (⟨1, ![n]⟩ : Shape).Idx) = ix1 e := by
  funext a
  match a with
  | ⟨0, _⟩ => exact Fin.ext rfl

theorem pad_lt {α : Type} (x : (S3250000 : Shape).Idx → α) (v : (S_ : Shape).Idx → α) (e : Fin 3250000) :
    pad S3252224 ![0] ![2224] ![0] x v pads_S3250000_S3252224_022240 h_S_ (ix1 (Fin.castLE (by decide) e)) = x (ix1 e) := by
  refine pad_apply_of_inside _ _ _ x v pads_S3250000_S3252224_022240 h_S_ _ (ix1 e) fun a => ?_
  match a with
  | ⟨0, _⟩ =>
    show e.val = 0 + e.val * (0 + 1)
    omega

theorem pad_ge {α : Type} (x : (S3250000 : Shape).Idx → α) (v : (S_ : Shape).Idx → α) (e : Fin 3252224) (h : 3250000 ≤ e.val) :
    pad S3252224 ![0] ![2224] ![0] x v pads_S3250000_S3252224_022240 h_S_ (ix1 e) = v (Shape.Idx.first h_S_) := by
  refine pad_apply_of_not_inside _ _ _ x v pads_S3250000_S3252224_022240 h_S_ _ (0 : Fin 1) fun hin => ?_
  have h3 := hin.2.2
  change (e.val - 0) / (0 + 1) < 3250000 at h3
  omega

theorem srcW_lt (e : Fin 3250000) : srcW x1 (Fin.castLE (by decide) e) = src0 x1 (ix1 e) := pad_lt _ _ e
theorem dstW_lt (e : Fin 3250000) : dstW x1 (Fin.castLE (by decide) e) = dst0 x1 (ix1 e) := pad_lt _ _ e
theorem ewW_lt (e : Fin 3250000) : ewW x2 (Fin.castLE (by decide) e) = ew0 x2 (ix1 e) := pad_lt _ _ e

theorem ewW_ge (e : Fin 3252224) (h : 3250000 ≤ e.val) : ewW x2 e = 0 :=
  (pad_ge _ _ e h).trans Ideal.ofBits_zero_f32

theorem col_apply (idx : (⟨S3252224, .i32⟩ : BufTy).Contents (Elt Ideal)) (e : Fin 3252224) : col idx (ixP e) = idx (ix1 e) :=
  (bcast_col1 bcast_S3252224_S3252224x1_0 idx e).trans (congrArg idx (ofFin_eq_ix1 e))

theorem fcol_apply (v : (⟨S3252224, .f32⟩ : BufTy).Contents (Elt Ideal)) (e : Fin 3252224) : fcol v (ixP e) = v (ix1 e) :=
  (bcast_col1 bcast_S3252224_S3252224x1_0 v e).trans (congrArg v (ofFin_eq_ix1 e))

theorem wrapCol_apply (idx : (⟨S3252224, .i32⟩ : BufTy).Contents (Elt Ideal)) (e : Fin 3252224) :
    wrapCol idx (ixP e) = Cert.Spec.wrapW (idx (ix1 e)) := by
  unfold wrapCol
  rw [col_apply]
  rfl

theorem take_apply (tbl : (⟨S50000, .f32⟩ : BufTy).Contents (Elt Ideal)) (idx : (⟨S3252224, .i32⟩ : BufTy).Contents (Elt Ideal)) (e : Fin 3252224) :
    Host.gather gather_S50000_S3252224x1_S3252224_n_0_n_n_0_1_1 tbl (wrapCol idx) (ix1 e)
      = tbl (ix1 (Cert.Spec.rowW (Cert.Spec.wrapW (idx (ix1 e))))) := by
  have h := gather_take gather_S50000_S3252224x1_S3252224_n_0_n_n_0_1_1 rfl rfl rfl rfl tbl (wrapCol idx) e (by decide)
  rw [ofFin_eq_ix1, ofFin_eq_ix1] at h
  rw [h]
  refine congrArg tbl (congrArg ix1 (Fin.ext ?_))
  show min ((wrapCol idx) (ixP e)).toInt.toNat (50000 - 1) = min (Cert.Spec.wrapW (idx (ix1 e))).toInt.toNat (50000 - 1)
  rw [wrapCol_apply]

theorem rowsOf_apply (XW : (⟨S50000x64, .f32⟩ : BufTy).Contents (Elt Ideal)) (e : Fin 3252224) (c : Fin 64) :
    rowsOf x1 XW (ix2 e c) = XW (ix2 (Cert.Spec.rowW (Cert.Spec.wrapW (srcW x1 e))) c) := by
  unfold rowsOf
  rw [Cert.LibRows.gather_rows gather_S50000x64_S3252224x1_S3252224x64_1_0_n_n_0_1_164 rfl rfl rfl rfl rfl XW (wrapCol (srcP x1)) (by decide) e c]
  refine congrArg (fun r => XW (ix2 r c)) (Fin.ext ?_)
  show min ((wrapCol (srcP x1)) (ixP e)).toInt.toNat (50000 - 1) = min (Cert.Spec.wrapW (srcW x1 e)).toInt.toNat (50000 - 1)
  rw [wrapCol_apply]
  rfl

theorem cat3_0 {α : Type} (A B C : (S3252224x1 : Shape).Idx → α) (e : Fin 3252224) :
    concatenate S3252224x3 1 [⟨S3252224x1, A⟩, ⟨S3252224x1, B⟩, ⟨S3252224x1, C⟩] concatenates_S3252224x1_S3252224x1_S3252224x1_S3252224x3_d1 (ix2 e 0) = A (ixP e) :=
  concatenate_apply_piece (t := S3252224x3) (1 : Fin 2) [⟨S3252224x1, A⟩, ⟨S3252224x1, B⟩, ⟨S3252224x1, C⟩] concatenates_S3252224x1_S3252224x1_S3252224x1_S3252224x3_d1 (ix2 e 0)
    0 (by show (0 : ℕ) < 3; omega) S3252224x1 A rfl rfl 0 rfl (ixP e) (fun b hb => by match b with | ⟨0, _⟩ => rfl | ⟨1, _⟩ => exact absurd rfl hb) rfl
theorem cat3_1 {α : Type} (A B C : (S3252224x1 : Shape).Idx → α) (e : Fin 3252224) :
    concatenate S3252224x3 1 [⟨S3252224x1, A⟩, ⟨S3252224x1, B⟩, ⟨S3252224x1, C⟩] concatenates_S3252224x1_S3252224x1_S3252224x1_S3252224x3_d1 (ix2 e 1) = B (ixP e) :=
  concatenate_apply_piece (t := S3252224x3) (1 : Fin 2) [⟨S3252224x1, A⟩, ⟨S3252224x1, B⟩, ⟨S3252224x1, C⟩] concatenates_S3252224x1_S3252224x1_S3252224x1_S3252224x3_d1 (ix2 e 1)
    1 (by show (1 : ℕ) < 3; omega) S3252224x1 B rfl rfl 1 rfl (ixP e) (fun b hb => by match b with | ⟨0, _⟩ => rfl | ⟨1, _⟩ => exact absurd rfl hb) rfl
theorem cat3_2 {α : Type} (A B C : (S3252224x1 : Shape).Idx → α) (e : Fin 3252224) :
    concatenate S3252224x3 1 [⟨S3252224x1, A⟩, ⟨S3252224x1, B⟩, ⟨S3252224x1, C⟩] concatenates_S3252224x1_S3252224x1_S3252224x1_S3252224x3_d1 (ix2 e 2) = C (ixP e) :=
  concatenate_apply_piece (t := S3252224x3) (1 : Fin 2) [⟨S3252224x1, A⟩, ⟨S3252224x1, B⟩, ⟨S3252224x1, C⟩] concatenates_S3252224x1_S3252224x1_S3252224x1_S3252224x3_d1 (ix2 e 2)
    2 (by show (2 : ℕ) < 3; omega) S3252224x1 C rfl rfl 2 rfl (ixP e) (fun b hb => by match b with | ⟨0, _⟩ => rfl | ⟨1, _⟩ => exact absurd rfl hb) rfl

theorem scal_0 (e : Fin 3252224) : scal x1 x2 (ix2 e 0) = dinv x1 x2 (ix1 (Cert.Spec.rowW (Cert.Spec.wrapW (srcW x1 e)))) := by
  unfold scal
  rw [cat3_0, fcol_apply, take_apply]
  rfl

theorem scal_1 (e : Fin 3252224) : scal x1 x2 (ix2 e 1) = ewW x2 e := by
  unfold scal
  rw [cat3_1, fcol_apply]
  rfl

theorem scal_2 (e : Fin 3252224) : scal x1 x2 (ix2 e 2) = dinv x1 x2 (ix1 (Cert.Spec.rowW (Cert.Spec.wrapW (dstW x1 e)))) := by
  unfold scal
  rw [cat3_2, fcol_apply, take_apply]
  rfl

theorem agg_apply (XW : (⟨S50000x64, .f32⟩ : BufTy).Contents (Elt Ideal)) (r : Fin 50000) (c : Fin 64) :
    agg x1 x2 XW (ix2 r c) = Cert.Spec.aggAt (srcW x1) (dstW x1) (ewW x2) XW (dinv x1 x2) r c := by
  unfold agg Cert.Spec.aggAt
  rw [Cert.LibRows.scatterAdd_rows scatter_S50000x64_S3252224x1_S3252224x64_1_0_0_1 rfl rfl rfl rfl]
  refine congrArg₂ (· + ·) rfl ?_
  refine Finset.sum_congr (Finset.filter_congr fun e _ => by rw [col_apply]; rfl) fun e _ => ?_
  rw [Cert.Spec.scaleRows_apply, rowsOf_apply, scal_0, scal_1, scal_2]
  rfl

theorem deg_apply (r : Fin 50000) : deg x1 x2 (ix1 r) = Cert.Spec.degAt (dstW x1) (ewW x2) r := by
  unfold deg Cert.Spec.degAt
  rw [Cert.LibRows1.scatterAdd_vec scatter_S50000_S3252224x1_S3252224_n_0_0_1 rfl rfl rfl rfl]
  refine congrArg₂ (· + ·) rfl ?_
  exact Finset.sum_congr (Finset.filter_congr fun e _ => by rw [col_apply]; rfl) fun e _ => rfl

end Cert.KernelIdeal.Val

end
-- ==== Proof.RefEdge.lean ====
import proofs.«165428_j46729244180997_1_alg».proof.Proof.Gen.ReferenceIdeal.Read
import proofs.«165428_j46729244180997_1_alg».proof.Proof.LibRows
import proofs.«165428_j46729244180997_1_alg».proof.Proof.LibRows1
import proofs.«165428_j46729244180997_1_alg».proof.Proof.Spec
import Idealize.ShloMosaic.Lib.StableHlo.Predicate
import Idealize.ShloMosaic.Lib.ValueIdx

noncomputable section

namespace Cert.ReferenceIdeal.RefVal

open Cert.ReferenceIdeal Cert.ReferenceIdeal.Gen Cert.ReferenceIdeal.Read
open Idealize.ShloMosaic Idealize.ShloMosaic.ValueIdx Idealize.ShloMosaic.StableHlo.Predicate

variable (x1 : (⟨S2x3200000, .i32⟩ : BufTy).Contents (Elt Ideal)) (x2 : (⟨S3200000x1, .f32⟩ : BufTy).Contents (Elt Ideal))

def srcW (e : Fin 3250000) : BitVec 32 := val_main_v4 (F := Ideal) x1 (ix1 e)

def dstW (e : Fin 3250000) : BitVec 32 := val_main_v7 (F := Ideal) x1 (ix1 e)

def ewW (e : Fin 3250000) : EReal := val_main_v9 (F := Ideal) x2 (ix1 e)

theorem ofFin_eq_ix1 {n : ℕ} (p : Fin n) : Shape.Idx.ofFin p = ix1 p := by
  funext a; match a with | ⟨0, _⟩ => exact Fin.ext rfl

theorem col_idx (e : Fin 3250000) : idx_main_v42 (ixP e) = ix1 e := by
  funext a; match a with | ⟨0, _⟩ => rfl

theorem wide_idx (e : Fin 3250000) (c : Fin 64) : idx_main_v45 (ix2 e c) = ixP e := by
  funext a; match a with | ⟨0, _⟩ => rfl | ⟨1, _⟩ => rfl

theorem src_wrap (e : Fin 3250000) : val_main_v42 (F := Ideal) x1 (ixP e) = Cert.Spec.wrapW (srcW x1 e) := by
  rw [val_main_v42_apply, col_idx, val_main_v41_apply, val_main_v38_apply, val_main_v40_apply, val_main_v37_apply,
    val_main_v39_apply, val_main_c_8_apply, val_main_c_9_apply]
  rfl

theorem src_wrap' (e : Fin 3250000) : val_main_v25 (F := Ideal) x1 (ixP e) = Cert.Spec.wrapW (srcW x1 e) := by
  rw [val_main_v25_apply, show idx_main_v25 (ixP e) = ix1 e from col_idx e, val_main_v24_apply, val_main_v21_apply,
    val_main_v23_apply, val_main_v20_apply, val_main_v22_apply, val_main_c_apply, val_main_c_5_apply]
  rfl

theorem dst_wrap (e : Fin 3250000) : val_main_v33 (F := Ideal) x1 (ixP e) = Cert.Spec.wrapW (dstW x1 e) := by
  rw [val_main_v33_apply, show idx_main_v33 (ixP e) = ix1 e from col_idx e, val_main_v32_apply, val_main_v29_apply,
    val_main_v31_apply, val_main_v28_apply, val_main_v30_apply, val_main_c_6_apply, val_main_c_7_apply]
  rfl

theorem dst_col (e : Fin 3250000) : val_main_v48 (F := Ideal) x1 (ixP e) = dstW x1 e := by
  rw [val_main_v48_apply, show idx_main_v48 (ixP e) = ix1 e from col_idx e]
  rfl

theorem scale_at (idx : (⟨S3250000x1, .i32⟩ : BufTy).Contents (Elt Ideal)) (w : BitVec 32) (e : Fin 3250000) (h : idx (ixP e) = w) :
    Host.gather gather_S50000_S3250000x1_S3250000_n_0_n_n_0_1_1 (val_main_v19 (F := Ideal) x1 x2) idx (ix1 e)
      = val_main_v19 (F := Ideal) x1 x2 (ix1 (Cert.Spec.rowW w)) := by
  subst h
  rw [← ofFin_eq_ix1, gather_take _ rfl rfl rfl rfl _ _ e (by decide), ofFin_eq_ix1]
  rfl

theorem factor_apply (e : Fin 3250000) (c : Fin 64) :
    val_main_v45 (F := Ideal) x1 x2 (ix2 e c)
      = (val_main_v19 (F := Ideal) x1 x2 (ix1 (Cert.Spec.rowW (Cert.Spec.wrapW (srcW x1 e)))) * ewW x2 e)
        * val_main_v19 (F := Ideal) x1 x2 (ix1 (Cert.Spec.rowW (Cert.Spec.wrapW (dstW x1 e)))) := by
  rw [val_main_v45_apply, wide_idx, val_main_v44_apply, show idx_main_v44 (ixP e) = ix1 e from col_idx e,
    val_main_v35_apply, val_main_v27_apply]
  unfold val_main_v26 val_main_v34
  rw [scale_at x1 x2 _ _ e (src_wrap' x1 e), scale_at x1 x2 _ _ e (dst_wrap x1 e)]
  rfl

theorem src_row (e : Fin 3250000) :
    Cert.LibRows.rowOf (N := 50000) (by decide) (val_main_v42 (F := Ideal) x1) e = Cert.Spec.rowW (Cert.Spec.wrapW (srcW x1 e)) := by
  apply Fin.ext
  show min (val_main_v42 (F := Ideal) x1 (ixP e)).toInt.toNat (50000 - 1) = min (Cert.Spec.wrapW (srcW x1 e)).toInt.toNat (50000 - 1)
  rw [src_wrap]

theorem edge_apply (XW : (⟨S50000x64, .f32⟩ : BufTy).Contents (Elt Ideal)) (e : Fin 3250000) (c : Fin 64) :
    mulf (F := Ideal) (φ := .f32) (Host.gather gather_S50000x64_S3250000x1_S3250000x64_1_0_n_n_0_1_164 XW (val_main_v42 (F := Ideal) x1))
        (val_main_v45 (F := Ideal) x1 x2) (ix2 e c)
      = Cert.Spec.edgeTerm XW (val_main_v19 (F := Ideal) x1 x2) (srcW x1 e) (dstW x1 e) (ewW x2 e) c := by
  rw [mulf_apply, Cert.LibRows.gather_rows _ rfl rfl rfl rfl rfl XW _ (by decide) e c, src_row, factor_apply]
  rfl

def aggR (XW : (⟨S50000x64, .f32⟩ : BufTy).Contents (Elt Ideal)) : (⟨S50000x64, .f32⟩ : BufTy).Contents (Elt Ideal) :=
  Host.scatterAdd (F := Ideal) (φ := .f32) scatter_S50000x64_S3250000x1_S3250000x64_1_0_0_1 (val_main_v47 (F := Ideal)) (val_main_v48 (F := Ideal) x1)
    (mulf (F := Ideal) (φ := .f32) (Host.gather gather_S50000x64_S3250000x1_S3250000x64_1_0_n_n_0_1_164 XW (val_main_v42 (F := Ideal) x1)) (val_main_v45 (F := Ideal) x1 x2))

theorem aggR_apply (XW : (⟨S50000x64, .f32⟩ : BufTy).Contents (Elt Ideal)) (r : Fin 50000) (c : Fin 64) :
    aggR x1 x2 XW (ix2 r c) = Cert.Spec.aggAt (srcW x1) (dstW x1) (ewW x2) XW (val_main_v19 (F := Ideal) x1 x2) r c := by
  unfold aggR Cert.Spec.aggAt
  rw [Cert.LibRows.scatterAdd_rows _ rfl rfl rfl rfl]
  have h0 : val_main_v47 (F := Ideal) (ix2 r c) = Cert.Spec.z32 := by
    rw [val_main_v47_apply, val_main_cst_10_apply]; rfl
  rw [h0]
  simp only [dst_col, edge_apply]

theorem deg_apply (r : Fin 50000) : val_main_v12 (F := Ideal) x1 x2 (ix1 r) = Cert.Spec.degAt (dstW x1) (ewW x2) r := by
  unfold val_main_v12 Cert.Spec.degAt ewW
  rw [Cert.LibRows1.scatterAdd_vec _ rfl rfl rfl rfl]
  have h0 : val_main_v10 (F := Ideal) (ix1 r) = Cert.Spec.z32 := by
    rw [val_main_v10_apply, val_main_cst_0_apply]; rfl
  have hd : ∀ e : Fin 3250000, val_main_v11 (F := Ideal) x1 (ixP e) = dstW x1 e := fun e => by
    rw [val_main_v11_apply, show idx_main_v11 (ixP e) = ix1 e from col_idx e]
    rfl
  rw [h0]
  simp only [hd]

theorem v49_eq (x0 : (⟨S50000x5, .f32⟩ : BufTy).Contents (Elt Ideal)) (x4 : (⟨S5x64, .f32⟩ : BufTy).Contents (Elt Ideal)) :
    val_main_v49 (F := Ideal) x0 x1 x2 x4 = aggR x1 x2 (val_main_v36 (F := Ideal) x0 x4) := by
  unfold val_main_v49 aggR val_main_v46 val_main_v43
  rfl

theorem v56_eq : val_main_v56 (F := Ideal) x1 x2 = val_main_v12 (F := Ideal) x1 x2 := by
  unfold val_main_v56 val_main_v12
  rfl

theorem v63_eq : val_main_v63 (F := Ideal) x1 x2 = val_main_v19 (F := Ideal) x1 x2 := by
  unfold val_main_v63 val_main_v19 val_main_v62 val_main_v18 val_main_v61 val_main_v17 val_main_v58 val_main_v14 val_main_v60 val_main_v16
  rw [v56_eq]
  rfl

theorem v69_eq : val_main_v69 (F := Ideal) x1 = val_main_v25 (F := Ideal) x1 := by
  unfold val_main_v69 val_main_v25 val_main_v68 val_main_v24 val_main_v65 val_main_v21 val_main_v67 val_main_v23
  rfl

theorem v77_eq : val_main_v77 (F := Ideal) x1 = val_main_v33 (F := Ideal) x1 := by
  unfold val_main_v77 val_main_v33 val_main_v76 val_main_v32 val_main_v73 val_main_v29 val_main_v75 val_main_v31
  rfl

theorem v86_eq : val_main_v86 (F := Ideal) x1 = val_main_v42 (F := Ideal) x1 := by
  unfold val_main_v86 val_main_v42 val_main_v85 val_main_v41 val_main_v82 val_main_v38 val_main_v84 val_main_v40
  rfl

theorem v79_eq : val_main_v79 (F := Ideal) x1 x2 = val_main_v35 (F := Ideal) x1 x2 := by
  unfold val_main_v79 val_main_v35 val_main_v71 val_main_v27 val_main_v70 val_main_v26 val_main_v78 val_main_v34
  rw [v63_eq, v69_eq, v77_eq]

theorem v89_eq : val_main_v89 (F := Ideal) x1 x2 = val_main_v45 (F := Ideal) x1 x2 := by
  unfold val_main_v89 val_main_v45 val_main_v88 val_main_v44
  rw [v79_eq]

theorem v93_eq (x0 : (⟨S50000x5, .f32⟩ : BufTy).Contents (Elt Ideal)) (x4 : (⟨S5x64, .f32⟩ : BufTy).Contents (Elt Ideal))
    (x5 : (⟨S64, .f32⟩ : BufTy).Contents (Elt Ideal)) (x6 : (⟨S64x64, .f32⟩ : BufTy).Contents (Elt Ideal)) :
    val_main_v93 (F := Ideal) x0 x1 x2 x4 x5 x6 = aggR x1 x2 (val_main_v80 (F := Ideal) x0 x1 x2 x4 x5 x6) := by
  unfold val_main_v93 aggR val_main_v90 val_main_v87
  rw [v86_eq, v89_eq]
  rfl

end Cert.ReferenceIdeal.RefVal

end
-- ==== Proof.Bridge.lean ====
import proofs.«165428_j46729244180997_1_alg».proof.Proof.Gen.ReferenceIdeal.Read
import proofs.«165428_j46729244180997_1_alg».proof.Proof.KDefs
import proofs.«165428_j46729244180997_1_alg».proof.Proof.KEdge
import proofs.«165428_j46729244180997_1_alg».proof.Proof.RefEdge
import Idealize.ShloMosaic.Lib.ValueLayout
import Idealize.ShloMosaic.Lib.ValueIdx

noncomputable section

namespace Cert.Bridge

open Idealize.ShloMosaic Idealize.ShloMosaic.ValueIdx
open Cert.ReferenceIdeal Cert.ReferenceIdeal.Read

variable [Cert.KernelIdeal.Facts] [Cert.ReferenceIdeal.Facts]

variable (x0 : (⟨S50000x5, .f32⟩ : BufTy).Contents (Elt Ideal)) (x1 : (⟨S2x3200000, .i32⟩ : BufTy).Contents (Elt Ideal))
  (x2 : (⟨S3200000x1, .f32⟩ : BufTy).Contents (Elt Ideal)) (x3 : (⟨S50000, .i32⟩ : BufTy).Contents (Elt Ideal))
  (x4 : (⟨S5x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x2, .f32⟩ : BufTy).Contents (Elt Ideal)) (x9 : (⟨S2, .f32⟩ : BufTy).Contents (Elt Ideal))

theorem src_eq : Cert.KernelIdeal.Val.src0 x1 = val_main_v4 (F := Ideal) x1 := rfl
theorem dst_eq : Cert.KernelIdeal.Val.dst0 x1 = val_main_v7 (F := Ideal) x1 := rfl
theorem ew_eq : Cert.KernelIdeal.Val.ew0 x2 = val_main_v9 (F := Ideal) x2 := rfl

theorem dinvOf_eq : Cert.KernelIdeal.Val.dinvOf (val_main_v12 (F := Ideal) x1 x2) = val_main_v19 (F := Ideal) x1 x2 := rfl

theorem deg_eq : Cert.KernelIdeal.Val.deg x1 x2 = val_main_v12 (F := Ideal) x1 x2 := by
  funext j
  obtain ⟨r, rfl⟩ : ∃ r : Fin 50000, j = ix1 r := ⟨j 0, eq_ix1 j⟩
  rw [Cert.KernelIdeal.Val.deg_apply, Cert.ReferenceIdeal.RefVal.deg_apply]
  exact Cert.Spec.degAt_pad (by decide) _ _ _ _
    (fun e => (Cert.KernelIdeal.Val.dstW_lt x1 e).trans (congrFun (dst_eq x1) (ix1 e)))
    (fun e => (Cert.KernelIdeal.Val.ewW_lt x2 e).trans (congrFun (ew_eq x2) (ix1 e)))
    (Cert.KernelIdeal.Val.ewW_ge x2) r

theorem dinv_eq : Cert.KernelIdeal.Val.dinv x1 x2 = val_main_v19 (F := Ideal) x1 x2 := by
  unfold Cert.KernelIdeal.Val.dinv
  rw [deg_eq]
  exact dinvOf_eq x1 x2

theorem agg_eq (XW : (⟨S50000x64, .f32⟩ : BufTy).Contents (Elt Ideal)) :
    Cert.KernelIdeal.Val.agg x1 x2 XW = Cert.ReferenceIdeal.RefVal.aggR x1 x2 XW := by
  funext j
  obtain ⟨r, c, rfl⟩ : ∃ (r : Fin 50000) (c : Fin 64), j = ix2 r c := ⟨j 0, j 1, eq_ix2 j⟩
  rw [Cert.KernelIdeal.Val.agg_apply, Cert.ReferenceIdeal.RefVal.aggR_apply, dinv_eq]
  exact Cert.Spec.aggAt_pad (by decide) _ _ _ _ _ _
    (fun e => (Cert.KernelIdeal.Val.srcW_lt x1 e).trans (congrFun (src_eq x1) (ix1 e)))
    (fun e => (Cert.KernelIdeal.Val.dstW_lt x1 e).trans (congrFun (dst_eq x1) (ix1 e)))
    (fun e => (Cert.KernelIdeal.Val.ewW_lt x2 e).trans (congrFun (ew_eq x2) (ix1 e)))
    (Cert.KernelIdeal.Val.ewW_ge x2) XW _ r c

theorem mm1 : Cert.Spec.mm x0 x4 = val_main_v36 (F := Ideal) x0 x4 := by
  funext j
  rw [val_main_v36_apply]
  refine Finset.sum_congr rfl fun k _ => ?_
  have el : lidx_main_v36 j k = ix2 (j 0) k := funext fun a => by match a with | ⟨0, _⟩ => rfl | ⟨1, _⟩ => rfl
  have er : ridx_main_v36 j k = ix2 k (j 1) := funext fun a => by match a with | ⟨0, _⟩ => rfl | ⟨1, _⟩ => rfl
  rw [el, er]
  rfl

theorem mm2 : Cert.Spec.mm (val_main_v53 (F := Ideal) x0 x1 x2 x4 x5) x6 = val_main_v80 (F := Ideal) x0 x1 x2 x4 x5 x6 := by
  funext j
  rw [val_main_v80_apply]
  refine Finset.sum_congr rfl fun k _ => ?_
  have el : lidx_main_v80 j k = ix2 (j 0) k := funext fun a => by match a with | ⟨0, _⟩ => rfl | ⟨1, _⟩ => rfl
  have er : ridx_main_v80 j k = ix2 k (j 1) := funext fun a => by match a with | ⟨0, _⟩ => rfl | ⟨1, _⟩ => rfl
  rw [el, er]
  rfl

theorem brelu1 (a : (⟨S50000x64, .f32⟩ : BufTy).Contents (Elt Ideal)) :
    Cert.Spec.biasRelu a (shapeCast _ x5 Cert.KernelIdeal.Facts₀.shapeCasts_S64_S1x64)
      = maximumf (addf a (val_main_v51 (F := Ideal) x5)) (val_main_call2_v0 (F := Ideal)) := by
  funext j
  obtain ⟨r, c, rfl⟩ : ∃ (r : Fin 50000) (c : Fin 64), j = ix2 r c := ⟨j 0, j 1, eq_ix2 j⟩
  rw [Cert.Spec.biasRelu_apply]
  show max (a (ix2 r c) + _) _ = max (a (ix2 r c) + val_main_v51 (F := Ideal) x5 (ix2 r c)) (val_main_call2_v0 (F := Ideal) (ix2 r c))
  rw [shapeCast_a_1a_apply, val_main_v51_apply, val_main_v50_apply, val_main_call2_v0_apply]
  have e : idx_main_v50 (idx_main_v51 (ix2 r c)) = ix1 c := funext fun a => by match a with | ⟨0, _⟩ => rfl
  rw [e]
  rfl

theorem brelu2 (a : (⟨S50000x64, .f32⟩ : BufTy).Contents (Elt Ideal)) :
    Cert.Spec.biasRelu a (shapeCast _ x7 Cert.KernelIdeal.Facts₀.shapeCasts_S64_S1x64)
      = maximumf (addf a (val_main_v95 (F := Ideal) x7)) (val_main_call5_v0 (F := Ideal)) := by
  funext j
  obtain ⟨r, c, rfl⟩ : ∃ (r : Fin 50000) (c : Fin 64), j = ix2 r c := ⟨j 0, j 1, eq_ix2 j⟩
  rw [Cert.Spec.biasRelu_apply]
  show max (a (ix2 r c) + _) _ = max (a (ix2 r c) + val_main_v95 (F := Ideal) x7 (ix2 r c)) (val_main_call5_v0 (F := Ideal) (ix2 r c))
  rw [shapeCast_a_1a_apply, val_main_v95_apply, val_main_v94_apply, val_main_call5_v0_apply]
  have e : idx_main_v94 (idx_main_v95 (ix2 r c)) = ix1 c := funext fun a => by match a with | ⟨0, _⟩ => rfl
  rw [e]
  rfl

theorem cnt_eq : (maximumf (Host.scatterAdd Cert.KernelIdeal.scatter_S50_S50000x1_S50000_n_0_0_1 (broadcastInDim S50 ![] Cert.KernelIdeal.Facts₀.bcast_S_S50 (constant (F := Ideal) S_ .f32 0x00000000#32))
          (broadcastInDim S50000x1 ![0] Cert.KernelIdeal.Facts₀.bcast_S50000_S50000x1_0 x3) (broadcastInDim S50000 ![] Cert.KernelIdeal.Facts₀.bcast_S_S50000 (constant (F := Ideal) S_ .f32 0x3F800000#32)))
        (broadcastInDim S50 ![] Cert.KernelIdeal.Facts₀.bcast_S_S50 (constant (F := Ideal) S_ .f32 0x3F800000#32))) = val_main_v106 (F := Ideal) x3 := rfl

theorem pool_eq : Cert.KernelIdeal.Val.pool x3 (val_main_v97 (F := Ideal) x0 x1 x2 x4 x5 x6 x7) = val_main_v109 (F := Ideal) x0 x1 x2 x3 x4 x5 x6 x7 := by
  unfold Cert.KernelIdeal.Val.pool
  rw [cnt_eq]
  rfl

theorem final_eq : Cert.Spec.affine (val_main_v109 (F := Ideal) x0 x1 x2 x3 x4 x5 x6 x7) x8 (shapeCast _ x9 Cert.KernelIdeal.Facts₀.shapeCasts_S2_S1x2)
    = val_main_v113 (F := Ideal) x0 x1 x2 x3 x4 x5 x6 x7 x8 x9 := by
  funext j
  obtain ⟨g, q, rfl⟩ : ∃ (g : Fin 50) (q : Fin 2), j = ix2 g q := ⟨j 0, j 1, eq_ix2 j⟩
  have hs : (∑ k : Fin 64, val_main_v109 (F := Ideal) x0 x1 x2 x3 x4 x5 x6 x7 (lidx_main_v110 (ix2 g q) k) * x8 (ridx_main_v110 (ix2 g q) k))
      = ∑ k : Fin 64, val_main_v109 (F := Ideal) x0 x1 x2 x3 x4 x5 x6 x7 (ix2 g k) * x8 (ix2 k q) := by
    refine Finset.sum_congr rfl fun k _ => ?_
    have el : lidx_main_v110 (ix2 g q) k = ix2 g k := funext fun a => by match a with | ⟨0, _⟩ => rfl | ⟨1, _⟩ => rfl
    have er : ridx_main_v110 (ix2 g q) k = ix2 k q := funext fun a => by match a with | ⟨0, _⟩ => rfl | ⟨1, _⟩ => rfl
    rw [el, er]
  have e : idx_main_v111 (idx_main_v112 (ix2 g q)) = ix1 q := funext fun a => by match a with | ⟨0, _⟩ => rfl
  rw [Cert.Spec.affine_apply, val_main_v113_apply, val_main_v110_apply, val_main_v112_apply, val_main_v111_apply, shapeCast_a_1a_apply, e, hs]
  rfl

theorem layer1 : Cert.KernelIdeal.Val.layer x1 x2 (Cert.Spec.mm x0 x4) x5 = val_main_v53 (F := Ideal) x0 x1 x2 x4 x5 := by
  rw [mm1]
  unfold Cert.KernelIdeal.Val.layer
  rw [agg_eq, ← Cert.ReferenceIdeal.RefVal.v49_eq, brelu1]
  rfl

theorem layer2 : Cert.KernelIdeal.Val.layer x1 x2 (Cert.Spec.mm (val_main_v53 (F := Ideal) x0 x1 x2 x4 x5) x6) x7
    = val_main_v97 (F := Ideal) x0 x1 x2 x4 x5 x6 x7 := by
  rw [mm2]
  unfold Cert.KernelIdeal.Val.layer
  rw [agg_eq, ← Cert.ReferenceIdeal.RefVal.v93_eq, brelu2]
  rfl

theorem result_eq : Cert.KernelIdeal.Val.result x1 x2 x0 x3 x4 x5 x6 x7 x8 x9 = val_main_v113 (F := Ideal) x0 x1 x2 x3 x4 x5 x6 x7 x8 x9 := by
  unfold Cert.KernelIdeal.Val.result
  rw [layer1, layer2, pool_eq, final_eq]

end Cert.Bridge

end
-- ==== Proof.lean ====
import proofs.«165428_j46729244180997_1_alg».proof.Defs
import proofs.«165428_j46729244180997_1_alg».proof.Proof.Gen.Kernel
import proofs.«165428_j46729244180997_1_alg».proof.Proof.Gen.KernelIdeal
import proofs.«165428_j46729244180997_1_alg».proof.Proof.Gen.ReferenceIdeal
import proofs.«165428_j46729244180997_1_alg».proof.Proof.Gen.Pre_finite_inputs
import proofs.«165428_j46729244180997_1_alg».proof.Proof.Gen.ReferenceIdeal.Run
import proofs.«165428_j46729244180997_1_alg».proof.Proof.Gen.ReferenceIdeal.Read
import proofs.«165428_j46729244180997_1_alg».proof.Proof.KernelIdeal.FrameRun
import proofs.«165428_j46729244180997_1_alg».proof.Proof.KChain3
import proofs.«165428_j46729244180997_1_alg».proof.Proof.Bridge

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

open Lean Elab Command in
-- Adds the theorem `n : T` with proof `e`, where the type of `e` is `T` once the definitions on both sides are unfolded.
elab "theorem_up_to_unfolding " n:ident " : " T:term " := " e:term : command => liftTermElabM do
  let T ← Term.elabType T
  let e ← Term.elabTerm e none
  Term.synthesizeSyntheticMVarsNoPostponing
  addDecl <| .thmDecl { name := (← getCurrNamespace) ++ n.getId, levelParams := [], type := ← instantiateMVars T, value := ← instantiateMVars e }

-- The word-level program and the idealized one are one text under two names, and the frame is proved at any reading of the floats.
theorem_up_to_unfolding frame_k : Cert.frame_Kernel :=
  fun m ρ (_ : Cert.Pre_Kernel m) => Cert.KernelIdeal.Hand.frame (F := Bits) m ρ

theorem frame_ki : Cert.frame_KernelIdeal := fun m ρ _ => Cert.KernelIdeal.Hand.frame (F := Ideal) m ρ

/-- The reference is host operations only: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.Val.result (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_main (F := Ideal) m ρ)
    have hb := h c
    exact ⟨(hb _ (Cert.KernelIdeal.Hand.mem_uc Cert.KernelIdeal.main_v82 (by decide))).trans (Cert.KernelIdeal.Val.result_eq m ρ c),
      Cert.KernelIdeal.Hand.arg_kept m ρ c _ hb Cert.KernelIdeal.main_arg0 (by decide) (by decide) (by decide),
      Cert.KernelIdeal.Hand.arg_kept m ρ c _ hb Cert.KernelIdeal.main_arg1 (by decide) (by decide) (by decide),
      Cert.KernelIdeal.Hand.arg_kept m ρ c _ hb Cert.KernelIdeal.main_arg2 (by decide) (by decide) (by decide),
      Cert.KernelIdeal.Hand.arg_kept m ρ c _ hb Cert.KernelIdeal.main_arg3 (by decide) (by decide) (by decide),
      Cert.KernelIdeal.Hand.arg_kept m ρ c _ hb Cert.KernelIdeal.main_arg4 (by decide) (by decide) (by decide),
      Cert.KernelIdeal.Hand.arg_kept m ρ c _ hb Cert.KernelIdeal.main_arg5 (by decide) (by decide) (by decide),
      Cert.KernelIdeal.Hand.arg_kept m ρ c _ hb Cert.KernelIdeal.main_arg6 (by decide) (by decide) (by decide),
      Cert.KernelIdeal.Hand.arg_kept m ρ c _ hb Cert.KernelIdeal.main_arg7 (by decide) (by decide) (by decide),
      Cert.KernelIdeal.Hand.arg_kept m ρ c _ hb Cert.KernelIdeal.main_arg8 (by decide) (by decide) (by decide),
      Cert.KernelIdeal.Hand.arg_kept m ρ c _ hb Cert.KernelIdeal.main_arg9 (by decide) (by decide) (by decide)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v113_eq, h0, h1, h2, h3, h4, h5, h6, h7, h8, h9]
    exact (Cert.Bridge.result_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
